-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_temperature" .f32 0x41649249#32 ((134217728 / 9395241 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x2x256 : Shape := ⟨3, ![2048, 2, 256]⟩
abbrev S2048 : Shape := ⟨1, ![2048]⟩
abbrev S_ : Shape := ⟨0, ![]⟩

class Facts : Prop where
  bcast_S_S2048x2x256 : S_.BroadcastsInDim S2048x2x256 (![] : Fin 0 → Fin S2048x2x256.rank)
  reducesTo_S2048x2x256_S_d0_1_2 : S2048x2x256.ReducesTo [0, 1, 2] S_
  h_S_ : 0 < S_.numel

variable [Facts]

def fn {F : FTy → Type} [FloatOps F] (main_arg0 : FVec F S2048x2x256 .f32) (main_arg1 : IVec S2048 32) : IVec S_ 1 :=
  let main_v0 : FVec F S2048x2x256 .f32 := Host.absf main_arg0
  let main_cst : FVec F S_ .f32 := constant S_ .f32 0x7F800000#32
  let main_v1 : FVec F S2048x2x256 .f32 := broadcastInDim S2048x2x256 ![] bcast_S_S2048x2x256 main_cst
  let main_v2 : IVec S2048x2x256 1 := cmpf .olt main_v0 main_v1
  let main_c : IVec S_ 1 := constantI S_ 1 1#1
  let main_v3 : IVec S_ 1 := (fun x v => Host.reduce IntOp.andi x v reducesTo_S2048x2x256_S_d0_1_2 h_S_) main_v2 main_c
  main_v3
-- ==== Kernel.lean ====
abbrev S2048x2x256 : Shape := ⟨3, ![2048, 2, 256]⟩
abbrev S2048 : Shape := ⟨1, ![2048]⟩
abbrev S2x2048x256 : Shape := ⟨3, ![2, 2048, 256]⟩
abbrev S4096x256 : Shape := ⟨2, ![4096, 256]⟩
abbrev S1x2048 : Shape := ⟨2, ![1, 2048]⟩
abbrev S2x2048 : Shape := ⟨2, ![2, 2048]⟩
abbrev S4096 : Shape := ⟨1, ![4096]⟩
abbrev S4096x1 : Shape := ⟨2, ![4096, 1]⟩
abbrev S1x4096 : Shape := ⟨2, ![1, 4096]⟩
abbrev S512x256 : Shape := ⟨2, ![512, 256]⟩
abbrev S512x1 : Shape := ⟨2, ![512, 1]⟩
abbrev S1x512 : Shape := ⟨2, ![1, 512]⟩
abbrev S512x512 : Shape := ⟨2, ![512, 512]⟩
abbrev S512x192 : Shape := ⟨2, ![512, 192]⟩
abbrev S192x512 : Shape := ⟨2, ![192, 512]⟩
abbrev S512x92 : Shape := ⟨2, ![512, 92]⟩
abbrev S512 : Shape := ⟨1, ![512]⟩
abbrev S92x512 : Shape := ⟨2, ![92, 512]⟩
abbrev S_ : Shape := ⟨0, ![]⟩

abbrev nBuf : Space → Nat
  | .hbm => 22
  | .vmem => 17
  | .smem => 0
  | _ => 0

abbrev bufTy : (tb : Table) → Fin (tcTables nBuf tb) → BufTy
  | .hbm, ⟨0, _⟩ => ⟨S2048x2x256, .f32⟩
  | .hbm, ⟨1, _⟩ => ⟨S2048, .i32⟩
  | .hbm, ⟨2, _⟩ => ⟨S2x2048x256, .f32⟩
  | .hbm, ⟨3, _⟩ => ⟨S4096x256, .f32⟩
  | .hbm, ⟨4, _⟩ => ⟨S1x2048, .i32⟩
  | .hbm, ⟨5, _⟩ => ⟨S2x2048, .i32⟩
  | .hbm, ⟨6, _⟩ => ⟨S4096, .i32⟩
  | .hbm, ⟨7, _⟩ => ⟨S4096x1, .i32⟩
  | .hbm, ⟨8, _⟩ => ⟨S1x4096, .i32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x1, .i32⟩
  | .local _ .vmem, ⟨5, _⟩ => ⟨S512x1, .i32⟩
  | .local _ .vmem, ⟨6, _⟩ => ⟨S1x512, .i32⟩
  | .local _ .vmem, ⟨7, _⟩ => ⟨S1x512, .i32⟩
  | .local _ .vmem, ⟨8, _⟩ => ⟨S512x1, .f32⟩
  | .local _ .vmem, ⟨9, _⟩ => ⟨S512x1, .f32⟩
  | .local _ .vmem, ⟨10, _⟩ => ⟨S512x1, .f32⟩
  | .local _ .vmem, ⟨11, _⟩ => ⟨S512x1, .f32⟩
  | .local _ .vmem, ⟨12, _⟩ => ⟨S512x1, .f32⟩
  | .local _ .vmem, ⟨13, _⟩ => ⟨S512x1, .f32⟩
  | .local _ .vmem, ⟨14, _⟩ => ⟨S512x1, .f32⟩
  | .local _ .vmem, ⟨15, _⟩ => ⟨S512x1, .f32⟩
  | .local _ .vmem, ⟨16, _⟩ => ⟨S512x1, .f32⟩
  | _, _ => ⟨S2048x2x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7_0 : Ref sig .tc := ⟨.hbm, 9, rfl⟩
abbrev main_v7_1 : Ref sig .tc := ⟨.hbm, 10, rfl⟩
abbrev main_cst : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v112 : BitVec 1 := Scalar.cmpi .eq arg1 c7_i32
  let v113 : BitVec 32 := Scalar.extui v112
  let c0_i32_54 : BitVec 32 := 0#32
  let v114 : BitVec 1 := Scalar.cmpi .ne v113 c0_i32_54
  v114

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  transposes_S2048x2x256_S2x2048x256_1_0_2 : S2048x2x256.Transposes [1, 0, 2] S2x2048x256
  shapeCasts_S2x2048x256_S4096x256 : S2x2048x256.ShapeCasts S4096x256
  shapeCasts_S2048_S1x2048 : S2048.ShapeCasts S1x2048
  bcast_S1x2048_S2x2048_0_1 : S1x2048.BroadcastsInDim S2x2048 (![0, 1] : Fin 2 → Fin S2x2048.rank)
  shapeCasts_S2x2048_S4096 : S2x2048.ShapeCasts S4096
  shapeCasts_S4096_S4096x1 : S4096.ShapeCasts S4096x1
  shapeCasts_S4096_S1x4096 : S4096.ShapeCasts S1x4096
  inb_S512x1_S512x1_0_0 : ∀ a, (![0, 0] : Fin 2 → Nat) a + S512x1.size a ≤ S512x1.size a
  h_S512x1 : 0 < S512x1.numel
  shapeCasts_S512x1_S512x1 : S512x1.ShapeCasts S512x1
  iota_S512x512_d0_w32 : S512x512.Iotas .tc 32 [0]
  iota_S512x512_d1_w32 : S512x512.Iotas .tc 32 [1]
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S512x1_S512x512 : S512x1.Broadcasts S512x512
  broadcasts_S1x512_S512x512 : S1x512.Broadcasts S512x512
  inb_S512x256_S512x192_0_0 : ∀ a, (![0, 0] : Fin 2 → Nat) a + S512x192.size a ≤ S512x256.size a
  h_S512x192 : 0 < S512x192.numel
  shapeCasts_S512x192_S512x192 : S512x192.ShapeCasts S512x192
  bitsLt_bf16_f32 : FTy.bits .bf16 < FTy.bits .f32
  transposes_S512x192_p1_0_S192x512 : S512x192.Transposes [1, 0] S192x512
  inb_S512x256_S512x92_0_164 : ∀ a, (![0, 164] : Fin 2 → Nat) a + S512x92.size a ≤ S512x256.size a
  h_S512x92 : 0 < S512x92.numel
  shapeCasts_S512x92_S512x92 : S512x92.ShapeCasts S512x92
  reduces_S512x92_S512 : S512x92.Reduces [1] S512
  shapeCasts_S512_S512x1 : S512.ShapeCasts S512x1
  transposes_S512x1_p1_0_S1x512 : S512x1.Transposes [1, 0] S1x512
  transposes_S512x92_p1_0_S92x512 : S512x92.Transposes [1, 0] S92x512
  reduces_S512x512_S512 : S512x512.Reduces [1] S512
  reducesTo_S4096x1_S_d0_1 : S4096x1.ReducesTo [0, 1] S_
  h_S_ : 0 < S_.numel
  dot_S512x192_S192x512_S512x512_1_0_0_1_n_n_wf : DotDims.WF S512x192 S192x512 S512x512 [1] [0] [0] [1] [] []
  dot_S512x92_S92x512_S512x512_1_0_0_1_n_n_wf : DotDims.WF S512x92 S92x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S4096x256.size a
  hwx0_0 : ∀ i : grid0.Coords, EltTy.bits .f32 = 32 ∨ (Rect.block (s := S4096x256) S512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S4096x256.size a
  hwx0_1 : ∀ i : grid0.Coords, EltTy.bits .f32 = 32 ∨ (Rect.block (s := S4096x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S4096x1.size a
  hwx0_2 : ∀ i : grid0.Coords, EltTy.bits .i32 = 32 ∨ (Rect.block (s := S4096x1) S512x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x4096.size a
  hwx0_3 : ∀ i : grid0.Coords, EltTy.bits .i32 = 32 ∨ (Rect.block (s := S1x4096) S1x512.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S4096x1.size a
  hwx0_4 : ∀ i : grid0.Coords, EltTy.bits .f32 = 32 ∨ (Rect.block (s := S4096x1) S512x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S4096x1.size a
  hwx0_5 : ∀ i : grid0.Coords, EltTy.bits .f32 = 32 ∨ (Rect.block (s := S4096x1) S512x1.size (cc0_transform_5 i) (hinb0_5 i)).WholeWords (EltTy.packing .f32)

variable [Facts₀]

def dot_S512x192_S192x512_S512x512_1_0_0_1_n_n : DotDims S512x192 S192x512 S512x512 where
  lhsContracting := [1]
  rhsContracting := [0]
  lhsNonContracting := [0]
  rhsNonContracting := [1]
  lhsBatch := []
  rhsBatch := []
  wf := dot_S512x192_S192x512_S512x512_1_0_0_1_n_n_wf
def dot_S512x92_S92x512_S512x512_1_0_0_1_n_n : DotDims S512x92 S92x512 S512x512 where
  lhsContracting := [1]
  rhsContracting := [0]
  lhsNonContracting := [0]
  rhsNonContracting := [1]
  lhsBatch := []
  rhsBatch := []
  wf := dot_S512x92_S92x512_S512x512_1_0_0_1_n_n_wf

abbrev win0_0 : Pipeline.Window sig grid0 :=
  Pipeline.Window.ofSpec (Memref.whole main_v1) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7_0) S512x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7_1) S512x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S2048x2x256 : Shape := ⟨3, ![2048, 2, 256]⟩
abbrev S2048 : Shape := ⟨1, ![2048]⟩
abbrev S2x2048x256 : Shape := ⟨3, ![2, 2048, 256]⟩
abbrev S4096x256 : Shape := ⟨2, ![4096, 256]⟩
abbrev S2048x1 : Shape := ⟨2, ![2048, 1]⟩
abbrev S1x2048 : Shape := ⟨2, ![1, 2048]⟩
abbrev S2048x2048 : Shape := ⟨2, ![2048, 2048]⟩
abbrev S1x2048x1x2048 : Shape := ⟨4, ![1, 2048, 1, 2048]⟩
abbrev S2x2048x2x2048 : Shape := ⟨4, ![2, 2048, 2, 2048]⟩
abbrev S4096x4096 : Shape := ⟨2, ![4096, 4096]⟩
abbrev S_ : Shape := ⟨0, ![]⟩
abbrev S4096 : Shape := ⟨1, ![4096]⟩
abbrev S4096x92 : Shape := ⟨2, ![4096, 92]⟩
abbrev S92x4096 : Shape := ⟨2, ![92, 4096]⟩
abbrev S4096x1 : Shape := ⟨2, ![4096, 1]⟩
abbrev S1x4096 : Shape := ⟨2, ![1, 4096]⟩
abbrev S4096x192 : Shape := ⟨2, ![4096, 192]⟩
abbrev S192x4096 : Shape := ⟨2, ![192, 4096]⟩

abbrev nBuf : Space → Nat
  | .hbm => 97
  | .vmem => 0
  | .smem => 0
  | _ => 0

abbrev bufTy : (tb : Table) → Fin (tcTables nBuf tb) → BufTy
  | .hbm, ⟨0, _⟩ => ⟨S2048x2x256, .f32⟩
  | .hbm, ⟨1, _⟩ => ⟨S2048, .i32⟩
  | .hbm, ⟨2, _⟩ => ⟨S2x2048x256, .f32⟩
  | .hbm, ⟨3, _⟩ => ⟨S4096x256, .f32⟩
  | .hbm, ⟨4, _⟩ => ⟨S2048x1, .i32⟩
  | .hbm, ⟨5, _⟩ => ⟨S1x2048, .i32⟩
  | .hbm, ⟨6, _⟩ => ⟨S2048x2048, .i32⟩
  | .hbm, ⟨7, _⟩ => ⟨S2048x2048, .i32⟩
  | .hbm, ⟨8, _⟩ => ⟨S2048x2048, .i1⟩
  | .hbm, ⟨9, _⟩ => ⟨S2048x2048, .f32⟩
  | .hbm, ⟨10, _⟩ => ⟨S1x2048x1x2048, .f32⟩
  | .hbm, ⟨11, _⟩ => ⟨S2x2048x2x2048, .f32⟩
  | .hbm, ⟨12, _⟩ => ⟨S4096x4096, .f32⟩
  | .hbm, ⟨13, _⟩ => ⟨S4096x4096, .i32⟩
  | .hbm, ⟨14, _⟩ => ⟨S4096x4096, .i32⟩
  | .hbm, ⟨15, _⟩ => ⟨S_, .i32⟩
  | .hbm, ⟨16, _⟩ => ⟨S4096x4096, .i32⟩
  | .hbm, ⟨17, _⟩ => ⟨S4096x4096, .i32⟩
  | .hbm, ⟨18, _⟩ => ⟨S4096x4096, .i1⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S_, .f32⟩
  | .hbm, ⟨25, _⟩ => ⟨S4096, .f32⟩
  | .hbm, ⟨26, _⟩ => ⟨S4096x92, .f32⟩
  | .hbm, ⟨27, _⟩ => ⟨S4096x92, .f32⟩
  | .hbm, ⟨28, _⟩ => ⟨S_, .f32⟩
  | .hbm, ⟨29, _⟩ => ⟨S4096, .f32⟩
  | .hbm, ⟨30, _⟩ => ⟨S92x4096, .f32⟩
  | .hbm, ⟨31, _⟩ => ⟨S4096x4096, .f32⟩
  | .hbm, ⟨32, _⟩ => ⟨S4096x1, .f32⟩
  | .hbm, ⟨33, _⟩ => ⟨S1x4096, .f32⟩
  | .hbm, ⟨34, _⟩ => ⟨S4096x4096, .f32⟩
  | .hbm, ⟨35, _⟩ => ⟨S4096x4096, .f32⟩
  | .hbm, ⟨36, _⟩ => ⟨S4096x4096, .f32⟩
  | .hbm, ⟨37, _⟩ => ⟨S_, .f32⟩
  | .hbm, ⟨38, _⟩ => ⟨S4096x4096, .f32⟩
  | .hbm, ⟨39, _⟩ => ⟨S4096x4096, .f32⟩
  | .hbm, ⟨40, _⟩ => ⟨S4096x4096, .f32⟩
  | .hbm, ⟨41, _⟩ => ⟨S_, .f32⟩
  | .hbm, ⟨42, _⟩ => ⟨S4096x4096, .f32⟩
  | .hbm, ⟨43, _⟩ => ⟨S4096x4096, .f32⟩
  | .hbm, ⟨44, _⟩ => ⟨S_, .f32⟩
  | .hbm, ⟨45, _⟩ => ⟨S4096x4096, .f32⟩
  | .hbm, ⟨46, _⟩ => ⟨S4096x4096, .i1⟩
  | .hbm, ⟨47, _⟩ => ⟨S_, .f32⟩
  | .hbm, ⟨48, _⟩ => ⟨S_, .f32⟩
  | .hbm, ⟨49, _⟩ => ⟨S4096x4096, .f32⟩
  | .hbm, ⟨50, _⟩ => ⟨S4096x4096, .f32⟩
  | .hbm, ⟨51, _⟩ => ⟨S4096x4096, .f32⟩
  | .hbm, ⟨52, _⟩ => ⟨S_, .f32⟩
  | .hbm, ⟨53, _⟩ => ⟨S4096x4096, .f32⟩
  | .hbm, ⟨54, _⟩ => ⟨S4096x4096, .i1⟩
  | .hbm, ⟨55, _⟩ => ⟨S_, .f32⟩
  | .hbm, ⟨56, _⟩ => ⟨S_, .f32⟩
  | .hbm, ⟨57, _⟩ => ⟨S4096x4096, .f32⟩
  | .hbm, ⟨58, _⟩ => ⟨S4096x4096, .f32⟩
  | .hbm, ⟨59, _⟩ => ⟨S4096x4096, .f32⟩
  | .hbm, ⟨60, _⟩ => ⟨S_, .f32⟩
  | .hbm, ⟨61, _⟩ => ⟨S4096, .f32⟩
  | .hbm, ⟨62, _⟩ => ⟨S4096, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S4096x192, .f32⟩
  | .hbm, ⟨68, _⟩ => ⟨S192x4096, .f32⟩
  | .hbm, ⟨69, _⟩ => ⟨S4096x4096, .f32⟩
  | .hbm, ⟨70, _⟩ => ⟨S_, .f32⟩
  | .hbm, ⟨71, _⟩ => ⟨S4096x4096, .f32⟩
  | .hbm, ⟨72, _⟩ => ⟨S4096x4096, .f32⟩
  | .hbm, ⟨73, _⟩ => ⟨S_, .f32⟩
  | .hbm, ⟨74, _⟩ => ⟨S4096, .f32⟩
  | .hbm, ⟨75, _⟩ => ⟨S4096x1, .f32⟩
  | .hbm, ⟨76, _⟩ => ⟨S4096x4096, .f32⟩
  | .hbm, ⟨77, _⟩ => ⟨S4096x4096, .f32⟩
  | .hbm, ⟨78, _⟩ => ⟨S4096x4096, .f32⟩
  | .hbm, ⟨79, _⟩ => ⟨S4096x4096, .f32⟩
  | .hbm, ⟨80, _⟩ => ⟨S_, .f32⟩
  | .hbm, ⟨81, _⟩ => ⟨S4096, .f32⟩
  | .hbm, ⟨82, _⟩ => ⟨S4096x1, .f32⟩
  | .hbm, ⟨83, _⟩ => ⟨S4096x1, .f32⟩
  | .hbm, ⟨84, _⟩ => ⟨S4096x4096, .f32⟩
  | .hbm, ⟨85, _⟩ => ⟨S4096x4096, .f32⟩
  | .hbm, ⟨86, _⟩ => ⟨S4096x4096, .f32⟩
  | .hbm, ⟨87, _⟩ => ⟨S_, .f32⟩
  | .hbm, ⟨88, _⟩ => ⟨S4096, .f32⟩
  | .hbm, ⟨89, _⟩ => ⟨S4096, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | _, _ => ⟨S2048x2x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_c : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_cst : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst_0 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_1 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_cst_2 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_cst_3 : Ref sig .tc := ⟨.hbm, 41, rfl⟩
abbrev main_v34 : Ref sig .tc := ⟨.hbm, 42, rfl⟩
abbrev main_v35 : Ref sig .tc := ⟨.hbm, 43, rfl⟩
abbrev main_cst_4 : Ref sig .tc := ⟨.hbm, 44, rfl⟩
abbrev main_v36 : Ref sig .tc := ⟨.hbm, 45, rfl⟩
abbrev main_v37 : Ref sig .tc := ⟨.hbm, 46, rfl⟩
abbrev main_cst_5 : Ref sig .tc := ⟨.hbm, 47, rfl⟩
abbrev main_call0_v0 : Ref sig .tc := ⟨.hbm, 48, rfl⟩
abbrev main_call0_v1 : Ref sig .tc := ⟨.hbm, 49, rfl⟩
abbrev main_v38 : Ref sig .tc := ⟨.hbm, 50, rfl⟩
abbrev main_v39 : Ref sig .tc := ⟨.hbm, 51, rfl⟩
abbrev main_cst_6 : Ref sig .tc := ⟨.hbm, 52, rfl⟩
abbrev main_v40 : Ref sig .tc := ⟨.hbm, 53, rfl⟩
abbrev main_v41 : Ref sig .tc := ⟨.hbm, 54, rfl⟩
abbrev main_cst_7 : Ref sig .tc := ⟨.hbm, 55, rfl⟩
abbrev main_call1_v0 : Ref sig .tc := ⟨.hbm, 56, rfl⟩
abbrev main_call1_v1 : Ref sig .tc := ⟨.hbm, 57, rfl⟩
abbrev main_v42 : Ref sig .tc := ⟨.hbm, 58, rfl⟩
abbrev main_v43 : Ref sig .tc := ⟨.hbm, 59, rfl⟩
abbrev main_cst_8 : Ref sig .tc := ⟨.hbm, 60, rfl⟩
abbrev main_v44 : Ref sig .tc := ⟨.hbm, 61, rfl⟩
abbrev main_v45 : Ref sig .tc := ⟨.hbm, 62, rfl⟩
abbrev main_cst_9 : Ref sig .tc := ⟨.hbm, 63, rfl⟩
abbrev main_v46 : Ref sig .tc := ⟨.hbm, 64, rfl⟩
abbrev main_cst_10 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_11 : Ref sig .tc := ⟨.hbm, 70, rfl⟩
abbrev main_v51 : Ref sig .tc := ⟨.hbm, 71, rfl⟩
abbrev main_v52 : Ref sig .tc := ⟨.hbm, 72, rfl⟩
abbrev main_cst_12 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_13 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_14 : Ref sig .tc := ⟨.hbm, 87, rfl⟩
abbrev main_v65 : Ref sig .tc := ⟨.hbm, 88, rfl⟩
abbrev main_v66 : Ref sig .tc := ⟨.hbm, 89, rfl⟩
abbrev main_cst_15 : Ref sig .tc := ⟨.hbm, 90, rfl⟩
abbrev main_v67 : Ref sig .tc := ⟨.hbm, 91, rfl⟩
abbrev main_cst_16 : Ref sig .tc := ⟨.hbm, 92, rfl⟩
abbrev main_v68 : Ref sig .tc := ⟨.hbm, 93, rfl⟩
abbrev main_cst_17 : Ref sig .tc := ⟨.hbm, 94, rfl⟩
abbrev main_v69 : Ref sig .tc := ⟨.hbm, 95, rfl⟩
abbrev main_v70 : Ref sig .tc := ⟨.hbm, 96, rfl⟩

abbrev nD : Nat := 1
abbrev τ : Topo := Topo.v7x

variable {F : FTy → Type} [FloatOps F]

class Facts₀ : Prop where
  transposes_S2048x2x256_S2x2048x256_1_0_2 : S2048x2x256.Transposes [1, 0, 2] S2x2048x256
  shapeCasts_S2x2048x256_S4096x256 : S2x2048x256.ShapeCasts S4096x256
  bcast_S2048_S2048x1_0 : S2048.BroadcastsInDim S2048x1 (![0] : Fin 1 → Fin S2048x1.rank)
  bcast_S2048_S1x2048_1 : S2048.BroadcastsInDim S1x2048 (![1] : Fin 1 → Fin S1x2048.rank)
  bcast_S2048x1_S2048x2048_0_1 : S2048x1.BroadcastsInDim S2048x2048 (![0, 1] : Fin 2 → Fin S2048x2048.rank)
  bcast_S1x2048_S2048x2048_0_1 : S1x2048.BroadcastsInDim S2048x2048 (![0, 1] : Fin 2 → Fin S2048x2048.rank)
  shapeCasts_S2048x2048_S1x2048x1x2048 : S2048x2048.ShapeCasts S1x2048x1x2048
  bcast_S1x2048x1x2048_S2x2048x2x2048_0_1_2_3 : S1x2048x1x2048.BroadcastsInDim S2x2048x2x2048 (![0, 1, 2, 3] : Fin 4 → Fin S2x2048x2x2048.rank)
  shapeCasts_S2x2048x2x2048_S4096x4096 : S2x2048x2x2048.ShapeCasts S4096x4096
  bcast_S_S4096x4096 : S_.BroadcastsInDim S4096x4096 (![] : Fin 0 → Fin S4096x4096.rank)
  reducesTo_S4096x4096_S4096_d1 : S4096x4096.ReducesTo [1] S4096
  h_S_ : 0 < S_.numel
  slices_S4096x256_S4096x92_0_164 : S4096x256.Slices ![0, 164] S4096x92
  reducesTo_S4096x92_S4096_d1 : S4096x92.ReducesTo [1] S4096
  transposes_S4096x92_S92x4096_1_0 : S4096x92.Transposes [1, 0] S92x4096
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  reducesTo_S4096_S_d0 : S4096.ReducesTo [0] S_
  slices_S4096x256_S4096x192_0_0 : S4096x256.Slices ![0, 0] S4096x192
  transposes_S4096x192_S192x4096_1_0 : S4096x192.Transposes [1, 0] S192x4096
  dot_S4096x92_S92x4096_S4096x4096_1_0_0_1_n_n_wf : DotDims.WF S4096x92 S92x4096 S4096x4096 [1] [0] [0] [1] [] []
  dot_S4096x192_S192x4096_S4096x4096_1_0_0_1_n_n_wf : DotDims.WF S4096x192 S192x4096 S4096x4096 [1] [0] [0] [1] [] []

variable [Facts₀]

def dot_S4096x92_S92x4096_S4096x4096_1_0_0_1_n_n : DotDims S4096x92 S92x4096 S4096x4096 where
  lhsContracting := [1]
  rhsContracting := [0]
  lhsNonContracting := [0]
  rhsNonContracting := [1]
  lhsBatch := []
  rhsBatch := []
  wf := dot_S4096x92_S92x4096_S4096x4096_1_0_0_1_n_n_wf
def dot_S4096x192_S192x4096_S4096x4096_1_0_0_1_n_n : DotDims S4096x192 S192x4096 S4096x4096 where
  lhsContracting := [1]
  rhsContracting := [0]
  lhsNonContracting := [0]
  rhsNonContracting := [1]
  lhsBatch := []
  rhsBatch := []
  wf := dot_S4096x192_S192x4096_S4096x4096_1_0_0_1_n_n_wf

class Facts : Prop extends Facts₀ where

variable [Facts]
-- ==== Proof.Spec.lean ====
/-
  The loss both programs compute, as one function G of the features and the labels: per row of the 4096 stacked rows the mean
  log-probability and the mean distance over the row's positive pairs, combined over the rows.
-/
import Idealize.ShloMosaic.PureOps.Ideal
import Idealize.ShloMosaic.Lib.ValueIdx

noncomputable section

namespace Cert.Spec

open Idealize.ShloMosaic

abbrev Feat : Type := (⟨3, ![2048, 2, 256]⟩ : Shape).Idx → EReal

abbrev Lab : Type := (⟨1, ![2048]⟩ : Shape).Idx → BitVec 32

def rowB (r : Fin 4096) : Fin 2048 := ⟨r.val % 2048, Nat.mod_lt _ (by norm_num)⟩

def rowV (r : Fin 4096) : Fin 2 := ⟨r.val / 2048, by have := r.isLt; omega⟩

def cf (x : Feat) (r : Fin 4096) (d : Fin 256) : EReal := x (ValueIdx.ix3 (rowB r) (rowV r) d)

def lab (lb : Lab) (r : Fin 4096) : BitVec 32 := lb (ValueIdx.ix1 (rowB r))

def pos (lb : Lab) (r k : Fin 4096) : EReal := if lab lb r = lab lb k ∧ r ≠ k then 1 else 0

def offd (r k : Fin 4096) : EReal := if r = k then 0 else 1

def head (x : Feat) (r : Fin 4096) (d : Fin 192) : EReal := cf x r ⟨d.val, by have := d.isLt; omega⟩

def tail (x : Feat) (r : Fin 4096) (d : Fin 92) : EReal := cf x r ⟨164 + d.val, by have := d.isLt; omega⟩

def invT : EReal := ((134217728 / 9395241 : ℝ) : EReal)

def logit (x : Feat) (r k : Fin 4096) : EReal := (∑ d : Fin 192, head x r d * head x k d) * invT

def sq (x : Feat) (r : Fin 4096) : EReal := ∑ d : Fin 92, tail x r d * tail x r d
def gram (x : Feat) (r k : Fin 4096) : EReal := ∑ d : Fin 92, tail x r d * tail x k d

def eps : EReal := Ideal.ofBits .f32 0x2B8CBCCC#32

def two : EReal := Ideal.ofBits .f32 0x40000000#32

def d2 (x : Feat) (r k : Fin 4096) : EReal := max (sq x r + sq x k - two * gram x r k) 0
def dist (x : Feat) (r k : Fin 4096) : EReal := if eps < d2 x r k then Ideal.sqrt (d2 x r k) else 0

def cnt (lb : Lab) (r : Fin 4096) : EReal := ∑ k : Fin 4096, pos lb r k
def rowMax (x : Feat) (r : Fin 4096) : EReal := Finset.univ.sup fun k : Fin 4096 => logit x r k
def denom (x : Feat) (r : Fin 4096) : EReal := ∑ k : Fin 4096, Ideal.exp (logit x r k - rowMax x r) * offd r k

def meanLogProb (x : Feat) (lb : Lab) (r : Fin 4096) : EReal :=
  Ideal.div (∑ k : Fin 4096, pos lb r k * ((logit x r k - rowMax x r) - Ideal.log (denom x r))) (cnt lb r)
def meanDist (x : Feat) (lb : Lab) (r : Fin 4096) : EReal :=
  Ideal.div (∑ k : Fin 4096, pos lb r k * dist x r k) (cnt lb r)

def combine (a b : EReal) : EReal :=
  Ideal.ofBits .f32 0xBF800000#32 * Ideal.div (Ideal.ofBits .f32 0x00000000#32 + a) (Ideal.ofBits .f32 0x45800000#32)
    + Ideal.ofBits .f32 0xBBA3D70A#32 * (Ideal.ofBits .f32 0x00000000#32 + b)

def G (x : Feat) (lb : Lab) : EReal :=
  combine (∑ r : Fin 4096, meanLogProb x lb r) (∑ r : Fin 4096, meanDist x lb r)

end Cert.Spec

end
-- ==== Proof.Consts.lean ====
/-
  The extended-real values of the float words the value modules read, and the temperature's named reciprocal: dividing by D is
  multiplying by 1 / D.
-/
import Idealize.ShloMosaic.PureOps.Ideal
import Idealize.ShloMosaic.PureOps.Ideal.Laws
import Idealize.ShloMosaic.PureOps.IdealRules
import proofs.«431328_j9835475108099_1_alg».proof.Defs
import proofs.«431328_j9835475108099_1_alg».proof.Proof.Spec

noncomputable section

namespace Cert.Consts

open Idealize.ShloMosaic

theorem ofBits_ninf : Ideal.ofBits .f32 0xFF800000#32 = (⊥ : EReal) := by
  simp [Ideal.ofBits, Ideal.ieee]

theorem ofBits_one : Ideal.ofBits .f32 0x3F800000#32 = (1 : EReal) := by
  simp [Ideal.ofBits, Ideal.ieee, -EReal.coe_mul]; norm_num

theorem ofBits_D : Ideal.ofBits .f32 0x3D8F5C29#32 = ((9395241 / 134217728 : ℝ) : EReal) := by
  simp [Ideal.ofBits, Ideal.ieee, -EReal.coe_mul]; norm_num

theorem div_D (x : EReal) : Ideal.div x (Ideal.ofBits .f32 0x3D8F5C29#32) = x * Cert.Spec.invT := by
  rw [ofBits_D, Ideal.div_coe (by norm_num : (9395241 / 134217728 : ℝ) ≠ 0), Cert.Spec.invT]
  congr 2
  norm_num

theorem named_invT :
    Named.named (F := Ideal) Cert.KernelIdeal.κ "inv_temperature" (φ := .f32) 0x41649249#32 = Cert.Spec.invT :=
  IdealRules.named_const.ideal_named_scalar _ _ _ _ rfl

theorem preserves : Cert.preserves_Kernel_KernelIdeal :=
  IdealRules.named_const.statement Cert.KernelIdeal.κ "inv_temperature" .f32 0x41649249#32
    ((134217728 / 9395241 : ℝ) : EReal) rfl

end Cert.Consts

end
-- ==== Proof.KI.Kit.lean ====
/-
  What the body's three runs and the launch share: the arrays as the region finds them, each window's block at a grid point, the
  body's two branch conditions in closed form over the 64 points (t % 8 = 0 and t % 8 = 7), and the memrefs the body is called with.
-/
import proofs.«431328_j9835475108099_1_alg».proof.Proof.Gen.KernelIdeal.Launch
import proofs.«431328_j9835475108099_1_alg».proof.Proof.Gen.KernelIdeal.Skeleton
import proofs.«431328_j9835475108099_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev V0 (c : Dev nD) : Valuation τ sig (Elt F) := StableHlo.after (List.flatten [hostOps0]) (fun b => m (c, b))

abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel

theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel

theorem liveAt0_4 : ∀ t : Fin cfg0.N, cond0_1 (grid0.coords t) → cfg0.idle 4 (grid0.coords t) = false := by decide +kernel
theorem liveAt0_5 : ∀ t : Fin cfg0.N, cond0_1 (grid0.coords t) → cfg0.idle 5 (grid0.coords t) = false := by decide +kernel

abbrev VO0_4 : View sig .tc .vmem S512x1 .f32 := (Memref.whole cc0_stg4_0 : Memref sig .tc .vmem S512x1 .f32).view
abbrev VO0_5 : View sig .tc .vmem S512x1 .f32 := (Memref.whole cc0_stg5_0 : Memref sig .tc .vmem S512x1 .f32).view

abbrev ms0_0 (t : Fin cfg0.N) : Memref sig .tc .vmem S512x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1 .f32 := win0_5.stage (cfg0.slots t 5)
abbrev hs0_5 (t : Fin cfg0.N) : (ms0_5 t).IsWhole := hstage0_5 ((cfg0.slots t 5).cast nbuf0_5)

abbrev scM0_0 : Memref sig .tc .vmem S512x1 .f32 := Memref.whole cc0_scratch0
abbrev scM0_1 : Memref sig .tc .vmem S512x1 .f32 := Memref.whole cc0_scratch1
abbrev scM0_2 : Memref sig .tc .vmem S512x1 .f32 := Memref.whole cc0_scratch2
abbrev scM0_3 : Memref sig .tc .vmem S512x1 .f32 := Memref.whole cc0_scratch3
abbrev scM0_4 : Memref sig .tc .vmem S512x1 .f32 := Memref.whole cc0_scratch4
abbrev VS0_0 : View sig .tc .vmem S512x1 .f32 := scM0_0.view
abbrev VS0_1 : View sig .tc .vmem S512x1 .f32 := scM0_1.view
abbrev VS0_2 : View sig .tc .vmem S512x1 .f32 := scM0_2.view
abbrev VS0_3 : View sig .tc .vmem S512x1 .f32 := scM0_3.view
abbrev VS0_4 : View sig .tc .vmem S512x1 .f32 := scM0_4.view

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.KernelIdeal.Hand

end
-- ==== Proof.KI.RunA.lean ====
/-
  The body at a grid point whose column block is the first: on whole operands holding the input blocks it runs to its end, leaving
  the inputs as they were and the listed stores (last first) in the outputs' and the totals' buffers.
-/
import proofs.«431328_j9835475108099_1_alg».proof.Proof.KI.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : cond0_0 i) (hc1 : ¬cond0_1 i)
    (x0 x1 : Vec F S512x256 .f32) (x2 : Vec F S512x1 .i32) (x3 : Vec F S1x512 .i32) :
    Σ' (L4 : List (View.Piece (Elt F) S512x1 .f32)) (L5 : List (View.Piece (Elt F) S512x1 .f32)) (LS0 : List (View.Piece (Elt F) S512x1 .f32)) (LS1 : List (View.Piece (Elt F) S512x1 .f32)) (LS2 : List (View.Piece (Elt F) S512x1 .f32)) (LS3 : List (View.Piece (Elt F) S512x1 .f32)), { LS4 : List (View.Piece (Elt F) S512x1 .f32) //
      ∀ (xi4 xi5 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3) ∗ (∃ f, arg12.view.loc (c : Thread nD τ) ↦[arg12.view.set]{fullShare} arg12.view.writes (Elt F) f LS4)) -∗ K ⟨⟩))
          ⊢ wp frame (wpE (defs₀ (F := F)) Variants.none c none) E (cc0__supcon_kernel i arg2 harg2 arg3 harg3 arg4 harg4 arg5 harg5 arg6 harg6 arg7 harg7 arg8 harg8 arg9 harg9 arg10 harg10 arg11 harg11 arg12 harg12) K } := by
  refine ⟨[], [], ?_, ?_, ?_, ?_, ?_, fun xi4 xi5 E K => ?run⟩
  case run =>
    simp only [cc0__supcon_kernel_eq_skeleton]; unfold cc0__supcon_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    isplitl [HS2]; · iexists _; iexact HS2
    isplitl [HS3]; · iexists _; iexact HS3
    iexists _; iexact HS4

end Cert.KernelIdeal.Hand

end
-- ==== Proof.KI.RunB.lean ====
/-
  The same where the column block is neither the first nor the last.
-/
import proofs.«431328_j9835475108099_1_alg».proof.Proof.KI.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : ¬cond0_1 i)
    (x0 x1 : Vec F S512x256 .f32) (x2 : Vec F S512x1 .i32) (x3 : Vec F S1x512 .i32) (xs0 xs1 xs2 xs3 xs4 : Vec F S512x1 .f32) :
    Σ' (L4 : List (View.Piece (Elt F) S512x1 .f32)) (L5 : List (View.Piece (Elt F) S512x1 .f32)) (LS0 : List (View.Piece (Elt F) S512x1 .f32)) (LS1 : List (View.Piece (Elt F) S512x1 .f32)) (LS2 : List (View.Piece (Elt F) S512x1 .f32)) (LS3 : List (View.Piece (Elt F) S512x1 .f32)), { LS4 : List (View.Piece (Elt F) S512x1 .f32) //
      ∀ (xi4 xi5 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xs0 ∗ owns (c : Thread nD τ) arg9 fullShare xs1 ∗ owns (c : Thread nD τ) arg10 fullShare xs2 ∗ owns (c : Thread nD τ) arg11 fullShare xs3 ∗ owns (c : Thread nD τ) arg12 fullShare xs4
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3) ∗ (∃ f, arg12.view.loc (c : Thread nD τ) ↦[arg12.view.set]{fullShare} arg12.view.writes (Elt F) f LS4)) -∗ K ⟨⟩))
          ⊢ wp frame (wpE (defs₀ (F := F)) Variants.none c none) E (cc0__supcon_kernel i arg2 harg2 arg3 harg3 arg4 harg4 arg5 harg5 arg6 harg6 arg7 harg7 arg8 harg8 arg9 harg9 arg10 harg10 arg11 harg11 arg12 harg12) K } := by
  refine ⟨[], [], ?_, ?_, ?_, ?_, ?_, fun xi4 xi5 E K => ?run⟩
  case run =>
    simp only [cc0__supcon_kernel_eq_skeleton]; unfold cc0__supcon_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0; obtain rfl := harg9.eq_unread hfs1; obtain rfl := harg10.eq_unread hfs2; obtain rfl := harg11.eq_unread hfs3; obtain rfl := harg12.eq_unread hfs4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    isplitl [HS2]; · iexists _; iexact HS2
    isplitl [HS3]; · iexists _; iexact HS3
    iexists _; iexact HS4

end Cert.KernelIdeal.Hand

end
-- ==== Proof.KI.RunC.lean ====
/-
  The same where the column block is the last.
-/
import proofs.«431328_j9835475108099_1_alg».proof.Proof.KI.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_C (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : cond0_1 i)
    (x0 x1 : Vec F S512x256 .f32) (x2 : Vec F S512x1 .i32) (x3 : Vec F S1x512 .i32) (xs0 xs1 xs2 xs3 xs4 : Vec F S512x1 .f32) :
    Σ' (L4 : List (View.Piece (Elt F) S512x1 .f32)) (L5 : List (View.Piece (Elt F) S512x1 .f32)) (LS0 : List (View.Piece (Elt F) S512x1 .f32)) (LS1 : List (View.Piece (Elt F) S512x1 .f32)) (LS2 : List (View.Piece (Elt F) S512x1 .f32)) (LS3 : List (View.Piece (Elt F) S512x1 .f32)), { LS4 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs0 ∗ owns (c : Thread nD τ) arg9 fullShare xs1 ∗ owns (c : Thread nD τ) arg10 fullShare xs2 ∗ owns (c : Thread nD τ) arg11 fullShare xs3 ∗ owns (c : Thread nD τ) arg12 fullShare xs4
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3) ∗ (∃ f, arg12.view.loc (c : Thread nD τ) ↦[arg12.view.set]{fullShare} arg12.view.writes (Elt F) f LS4)) -∗ K ⟨⟩))
          ⊢ wp frame (wpE (defs₀ (F := F)) Variants.none c none) E (cc0__supcon_kernel i arg2 harg2 arg3 harg3 arg4 harg4 arg5 harg5 arg6 harg6 arg7 harg7 arg8 harg8 arg9 harg9 arg10 harg10 arg11 harg11 arg12 harg12) K } := by
  refine ⟨?_, ?_, ?_, ?_, ?_, ?_, ?_, fun E K => ?run⟩
  case run =>
    simp only [cc0__supcon_kernel_eq_skeleton]; unfold cc0__supcon_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg2.eq_unread hf0; obtain rfl := harg3.eq_unread hf1; obtain rfl := harg4.eq_unread hf2; obtain rfl := harg5.eq_unread hf3; obtain rfl := harg8.eq_unread hfs0; obtain rfl := harg9.eq_unread hfs1; obtain rfl := harg10.eq_unread hfs2; obtain rfl := harg11.eq_unread hfs3; obtain rfl := harg12.eq_unread hfs4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [HS0]; · iexists _; iexact HS0
    isplitl [HS1]; · iexists _; iexact HS1
    isplitl [HS2]; · iexists _; iexact HS2
    isplitl [HS3]; · iexists _; iexact HS3
    iexists _; iexact HS4

end Cert.KernelIdeal.Hand

end
-- ==== Proof.KI.Frame.lean ====
/-
  The region's proof data. The body has three cases by the point's column block (first: the five running totals are reset, then
  updated; neither: updated; last: updated, and the two outputs written from them). In each case every buffer's stores cover it, so
  what it then holds is a function of the stores alone; point by point this names what the seven buffers hold, and the invariant
  carries the five totals from one point to the next.
-/
import proofs.«431328_j9835475108099_1_alg».proof.Proof.KI.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The body's eleven operands, each a whole buffer: the four input blocks', the two outputs', the five running totals'. -/
structure Bufs where
  a2 : Memref sig .tc .vmem S512x256 .f32
  h2 : a2.IsWhole
  a3 : Memref sig .tc .vmem S512x256 .f32
  h3 : a3.IsWhole
  a4 : Memref sig .tc .vmem S512x1 .i32
  h4 : a4.IsWhole
  a5 : Memref sig .tc .vmem S1x512 .i32
  h5 : a5.IsWhole
  a6 : Memref sig .tc .vmem S512x1 .f32
  h6 : a6.IsWhole
  a7 : Memref sig .tc .vmem S512x1 .f32
  h7 : a7.IsWhole
  a8 : Memref sig .tc .vmem S512x1 .f32
  h8 : a8.IsWhole
  a9 : Memref sig .tc .vmem S512x1 .f32
  h9 : a9.IsWhole
  a10 : Memref sig .tc .vmem S512x1 .f32
  h10 : a10.IsWhole
  a11 : Memref sig .tc .vmem S512x1 .f32
  h11 : a11.IsWhole
  a12 : Memref sig .tc .vmem S512x1 .f32
  h12 : a12.IsWhole

/-- The operands the body is called with at grid point t. -/
abbrev bufsAt (t : Fin cfg0.N) : Bufs :=
  ⟨ms0_0 t, hs0_0 t, ms0_1 t, hs0_1 t, ms0_2 t, hs0_2 t, ms0_3 t, hs0_3 t, ms0_4 t, hs0_4 t, ms0_5 t, hs0_5 t,
    scM0_0, Memref.isWhole_whole _, scM0_1, Memref.isWhole_whole _, scM0_2, Memref.isWhole_whole _, scM0_3, Memref.isWhole_whole _, scM0_4, Memref.isWhole_whole _⟩

/-- Away from the last column block the body stores nothing into the two outputs: the contents named for them there are a
    placeholder that nothing reads. -/
def idle0_4 : Vec F S512x1 .f32 := VO0_4.read (Elt F) VO0_4.junk
def idle0_5 : Vec F S512x1 .f32 := VO0_5.read (Elt F) VO0_5.junk

section
variable (c : Dev nD) (i : grid0.Coords) (b : Bufs) (hc0 : cond0_0 i) (hc1 : ¬cond0_1 i) (x0 x1 : Vec F S512x256 .f32) (x2 : Vec F S512x1 .i32) (x3 : Vec F S1x512 .i32)

/-- The body's run where the column block is the first (the totals are reset, then updated). Each list of stores it leaves tiles its buffer, so it covers it. -/
def runA := kernelRun0_A c i b.a2 b.h2 b.a3 b.h3 b.a4 b.h4 b.a5 b.h5 b.a6 b.h6 b.a7 b.h7 b.a8 b.h8 b.a9 b.h9 b.a10 b.h10 b.a11 b.h11 b.a12 b.h12 hc0 hc1 x0 x1 x2 x3

theorem scover0_A_0 : ∀ y : S512x1.Idx, ∃ pc ∈ (runA c i b hc0 hc1 x0 x1 x2 x3).2.2.1, y ∈ pc.1.set := View.cover_of_tiledL _ S512x1.size (by sl_kernel_rfl)
theorem scover0_A_1 : ∀ y : S512x1.Idx, ∃ pc ∈ (runA c i b hc0 hc1 x0 x1 x2 x3).2.2.2.1, y ∈ pc.1.set := View.cover_of_tiledL _ S512x1.size (by sl_kernel_rfl)
theorem scover0_A_2 : ∀ y : S512x1.Idx, ∃ pc ∈ (runA c i b hc0 hc1 x0 x1 x2 x3).2.2.2.2.1, y ∈ pc.1.set := View.cover_of_tiledL _ S512x1.size (by sl_kernel_rfl)
theorem scover0_A_3 : ∀ y : S512x1.Idx, ∃ pc ∈ (runA c i b hc0 hc1 x0 x1 x2 x3).2.2.2.2.2.1, y ∈ pc.1.set := View.cover_of_tiledL _ S512x1.size (by sl_kernel_rfl)
theorem scover0_A_4 : ∀ y : S512x1.Idx, ∃ pc ∈ (runA c i b hc0 hc1 x0 x1 x2 x3).2.2.2.2.2.2.1, y ∈ pc.1.set := View.cover_of_tiledL _ S512x1.size (by sl_kernel_rfl)

/-- What the seven buffers then hold (output 4, output 5, the five totals): a covering list of stores leaves its canonical contents, whatever was there. -/
def outsA : Vec F S512x1 .f32 × Vec F S512x1 .f32 × Vec F S512x1 .f32 × Vec F S512x1 .f32 × Vec F S512x1 .f32 × Vec F S512x1 .f32 × Vec F S512x1 .f32 :=
  (idle0_4, idle0_5, View.canon (runA c i b hc0 hc1 x0 x1 x2 x3).2.2.1, View.canon (runA c i b hc0 hc1 x0 x1 x2 x3).2.2.2.1, View.canon (runA c i b hc0 hc1 x0 x1 x2 x3).2.2.2.2.1, View.canon (runA c i b hc0 hc1 x0 x1 x2 x3).2.2.2.2.2.1, View.canon (runA c i b hc0 hc1 x0 x1 x2 x3).2.2.2.2.2.2.1)

end

section
variable (c : Dev nD) (i : grid0.Coords) (b : Bufs) (hc0 : ¬cond0_0 i) (hc1 : ¬cond0_1 i) (x0 x1 : Vec F S512x256 .f32) (x2 : Vec F S512x1 .i32) (x3 : Vec F S1x512 .i32) (xs : Vec F S512x1 .f32 × Vec F S512x1 .f32 × Vec F S512x1 .f32 × Vec F S512x1 .f32 × Vec F S512x1 .f32)

/-- Where the column block is neither the first nor the last: the totals are updated over what they held, xs. -/
def runB := kernelRun0_B c i b.a2 b.h2 b.a3 b.h3 b.a4 b.h4 b.a5 b.h5 b.a6 b.h6 b.a7 b.h7 b.a8 b.h8 b.a9 b.h9 b.a10 b.h10 b.a11 b.h11 b.a12 b.h12 hc0 hc1 x0 x1 x2 x3 xs.1 xs.2.1 xs.2.2.1 xs.2.2.2.1 xs.2.2.2.2

theorem scover0_B_0 : ∀ y : S512x1.Idx, ∃ pc ∈ (runB c i b hc0 hc1 x0 x1 x2 x3 xs).2.2.1, y ∈ pc.1.set := View.cover_of_tiledL _ S512x1.size (by sl_kernel_rfl)
theorem scover0_B_1 : ∀ y : S512x1.Idx, ∃ pc ∈ (runB c i b hc0 hc1 x0 x1 x2 x3 xs).2.2.2.1, y ∈ pc.1.set := View.cover_of_tiledL _ S512x1.size (by sl_kernel_rfl)
theorem scover0_B_2 : ∀ y : S512x1.Idx, ∃ pc ∈ (runB c i b hc0 hc1 x0 x1 x2 x3 xs).2.2.2.2.1, y ∈ pc.1.set := View.cover_of_tiledL _ S512x1.size (by sl_kernel_rfl)
theorem scover0_B_3 : ∀ y : S512x1.Idx, ∃ pc ∈ (runB c i b hc0 hc1 x0 x1 x2 x3 xs).2.2.2.2.2.1, y ∈ pc.1.set := View.cover_of_tiledL _ S512x1.size (by sl_kernel_rfl)
theorem scover0_B_4 : ∀ y : S512x1.Idx, ∃ pc ∈ (runB c i b hc0 hc1 x0 x1 x2 x3 xs).2.2.2.2.2.2.1, y ∈ pc.1.set := View.cover_of_tiledL _ S512x1.size (by sl_kernel_rfl)

/-- What the seven buffers then hold. -/
def outsB : Vec F S512x1 .f32 × Vec F S512x1 .f32 × Vec F S512x1 .f32 × Vec F S512x1 .f32 × Vec F S512x1 .f32 × Vec F S512x1 .f32 × Vec F S512x1 .f32 :=
  (idle0_4, idle0_5, View.canon (runB c i b hc0 hc1 x0 x1 x2 x3 xs).2.2.1, View.canon (runB c i b hc0 hc1 x0 x1 x2 x3 xs).2.2.2.1, View.canon (runB c i b hc0 hc1 x0 x1 x2 x3 xs).2.2.2.2.1, View.canon (runB c i b hc0 hc1 x0 x1 x2 x3 xs).2.2.2.2.2.1, View.canon (runB c i b hc0 hc1 x0 x1 x2 x3 xs).2.2.2.2.2.2.1)

end

section
variable (c : Dev nD) (i : grid0.Coords) (b : Bufs) (hc0 : ¬cond0_0 i) (hc1 : cond0_1 i) (x0 x1 : Vec F S512x256 .f32) (x2 : Vec F S512x1 .i32) (x3 : Vec F S1x512 .i32) (xs : Vec F S512x1 .f32 × Vec F S512x1 .f32 × Vec F S512x1 .f32 × Vec F S512x1 .f32 × Vec F S512x1 .f32)

/-- Where the column block is the last: the totals are updated over xs and the two outputs written from them. -/
def runC := kernelRun0_C c i b.a2 b.h2 b.a3 b.h3 b.a4 b.h4 b.a5 b.h5 b.a6 b.h6 b.a7 b.h7 b.a8 b.h8 b.a9 b.h9 b.a10 b.h10 b.a11 b.h11 b.a12 b.h12 hc0 hc1 x0 x1 x2 x3 xs.1 xs.2.1 xs.2.2.1 xs.2.2.2.1 xs.2.2.2.2

theorem cover0_C_4 : ∀ y : S512x1.Idx, ∃ pc ∈ (runC c i b hc0 hc1 x0 x1 x2 x3 xs).1, y ∈ pc.1.set := View.cover_of_tiledL _ S512x1.size (by sl_kernel_rfl)
theorem cover0_C_5 : ∀ y : S512x1.Idx, ∃ pc ∈ (runC c i b hc0 hc1 x0 x1 x2 x3 xs).2.1, y ∈ pc.1.set := View.cover_of_tiledL _ S512x1.size (by sl_kernel_rfl)
theorem scover0_C_0 : ∀ y : S512x1.Idx, ∃ pc ∈ (runC c i b hc0 hc1 x0 x1 x2 x3 xs).2.2.1, y ∈ pc.1.set := View.cover_of_tiledL _ S512x1.size (by sl_kernel_rfl)
theorem scover0_C_1 : ∀ y : S512x1.Idx, ∃ pc ∈ (runC c i b hc0 hc1 x0 x1 x2 x3 xs).2.2.2.1, y ∈ pc.1.set := View.cover_of_tiledL _ S512x1.size (by sl_kernel_rfl)
theorem scover0_C_2 : ∀ y : S512x1.Idx, ∃ pc ∈ (runC c i b hc0 hc1 x0 x1 x2 x3 xs).2.2.2.2.1, y ∈ pc.1.set := View.cover_of_tiledL _ S512x1.size (by sl_kernel_rfl)
theorem scover0_C_3 : ∀ y : S512x1.Idx, ∃ pc ∈ (runC c i b hc0 hc1 x0 x1 x2 x3 xs).2.2.2.2.2.1, y ∈ pc.1.set := View.cover_of_tiledL _ S512x1.size (by sl_kernel_rfl)
theorem scover0_C_4 : ∀ y : S512x1.Idx, ∃ pc ∈ (runC c i b hc0 hc1 x0 x1 x2 x3 xs).2.2.2.2.2.2.1, y ∈ pc.1.set := View.cover_of_tiledL _ S512x1.size (by sl_kernel_rfl)

/-- What the seven buffers then hold. -/
def outsC : Vec F S512x1 .f32 × Vec F S512x1 .f32 × Vec F S512x1 .f32 × Vec F S512x1 .f32 × Vec F S512x1 .f32 × Vec F S512x1 .f32 × Vec F S512x1 .f32 :=
  (View.canon (runC c i b hc0 hc1 x0 x1 x2 x3 xs).1, View.canon (runC c i b hc0 hc1 x0 x1 x2 x3 xs).2.1, View.canon (runC c i b hc0 hc1 x0 x1 x2 x3 xs).2.2.1, View.canon (runC c i b hc0 hc1 x0 x1 x2 x3 xs).2.2.2.1, View.canon (runC c i b hc0 hc1 x0 x1 x2 x3 xs).2.2.2.2.1, View.canon (runC c i b hc0 hc1 x0 x1 x2 x3 xs).2.2.2.2.2.1, View.canon (runC c i b hc0 hc1 x0 x1 x2 x3 xs).2.2.2.2.2.2.1)

end

/-- The three cases at grid point t, on the point's operands and input blocks. -/
def atA (c : Dev nD) (t : Fin cfg0.N) (h0 : t.val % 8 = 0) : Vec F S512x1 .f32 × Vec F S512x1 .f32 × Vec F S512x1 .f32 × Vec F S512x1 .f32 × Vec F S512x1 .f32 × Vec F S512x1 .f32 × Vec F S512x1 .f32 :=
  outsA c (grid0.coords t) (bufsAt t) ((hcond0_0 t).mpr h0) (fun h => absurd ((hcond0_1 t).mp h) (by omega)) (iblk m c 0 t) (iblk m c 1 t) (iblk m c 2 t) (iblk m c 3 t)
def atB (c : Dev nD) (t : Fin cfg0.N) (h0 : ¬t.val % 8 = 0) (h1 : ¬t.val % 8 = 7) (xs : Vec F S512x1 .f32 × Vec F S512x1 .f32 × Vec F S512x1 .f32 × Vec F S512x1 .f32 × Vec F S512x1 .f32) : Vec F S512x1 .f32 × Vec F S512x1 .f32 × Vec F S512x1 .f32 × Vec F S512x1 .f32 × Vec F S512x1 .f32 × Vec F S512x1 .f32 × Vec F S512x1 .f32 :=
  outsB c (grid0.coords t) (bufsAt t) (fun h => h0 ((hcond0_0 t).mp h)) (fun h => h1 ((hcond0_1 t).mp h)) (iblk m c 0 t) (iblk m c 1 t) (iblk m c 2 t) (iblk m c 3 t) xs
def atC (c : Dev nD) (t : Fin cfg0.N) (h1 : t.val % 8 = 7) (xs : Vec F S512x1 .f32 × Vec F S512x1 .f32 × Vec F S512x1 .f32 × Vec F S512x1 .f32 × Vec F S512x1 .f32) : Vec F S512x1 .f32 × Vec F S512x1 .f32 × Vec F S512x1 .f32 × Vec F S512x1 .f32 × Vec F S512x1 .f32 × Vec F S512x1 .f32 × Vec F S512x1 .f32 :=
  outsC c (grid0.coords t) (bufsAt t) (fun h => absurd ((hcond0_0 t).mp h) (by omega)) ((hcond0_1 t).mpr h1) (iblk m c 0 t) (iblk m c 1 t) (iblk m c 2 t) (iblk m c 3 t) xs

/-- What the seven buffers hold after the body at position n: the case the column block selects, over what the five
    totals held after the point before. -/
def outsAt0 (c : Dev nD) : (n : ℕ) → n < cfg0.N → Vec F S512x1 .f32 × Vec F S512x1 .f32 × Vec F S512x1 .f32 × Vec F S512x1 .f32 × Vec F S512x1 .f32 × Vec F S512x1 .f32 × Vec F S512x1 .f32
  | 0, hn => atA m c ⟨0, hn⟩ (Nat.zero_mod _)
  | n + 1, hn =>
    if h0 : (n + 1) % 8 = 0 then atA m c ⟨n + 1, hn⟩ h0
    else if h1 : (n + 1) % 8 = 7 then atC m c ⟨n + 1, hn⟩ h1 (outsAt0 c n (Nat.lt_of_succ_lt hn)).2.2
    else atB m c ⟨n + 1, hn⟩ h0 h1 (outsAt0 c n (Nat.lt_of_succ_lt hn)).2.2

/-- The totals after the point before t. -/
abbrev prev0 (c : Dev nD) (t : Fin cfg0.N) : Vec F S512x1 .f32 × Vec F S512x1 .f32 × Vec F S512x1 .f32 × Vec F S512x1 .f32 × Vec F S512x1 .f32 := (outsAt0 m c (t.val - 1) (Nat.lt_of_le_of_lt (Nat.sub_le _ _) t.isLt)).2.2

theorem outsAt0_A (c : Dev nD) (t : Fin cfg0.N) (h0 : t.val % 8 = 0) : outsAt0 m c t.val t.isLt = atA m c t h0 := by
  obtain ⟨n, hn⟩ := t
  cases n with
  | zero => rfl
  | succ n => exact dif_pos h0

theorem outsAt0_B (c : Dev nD) (t : Fin cfg0.N) (h0 : ¬t.val % 8 = 0) (h1 : ¬t.val % 8 = 7) :
    outsAt0 m c t.val t.isLt = atB m c t h0 h1 (prev0 m c t) := by
  obtain ⟨n, hn⟩ := t
  cases n with
  | zero => exact absurd (Nat.zero_mod _) h0
  | succ n => exact (dif_neg h0).trans (dif_neg h1)

theorem outsAt0_C (c : Dev nD) (t : Fin cfg0.N) (h1 : t.val % 8 = 7) : outsAt0 m c t.val t.isLt = atC m c t h1 (prev0 m c t) := by
  obtain ⟨n, hn⟩ := t
  cases n with
  | zero => exact absurd h1 (by dsimp only; omega)
  | succ n => exact (dif_neg (by dsimp only at h1 ⊢; omega)).trans (dif_pos h1)

/-- The five totals' buffers owned at the contents xs. -/
def totals (c : Dev nD) (xs : Vec F S512x1 .f32 × Vec F S512x1 .f32 × Vec F S512x1 .f32 × Vec F S512x1 .f32 × Vec F S512x1 .f32) : sProp 𝕄 :=
  iprop(iprop(owns (c : Thread nD τ) scM0_0 fullShare xs.1 ∗ owns (c : Thread nD τ) scM0_1 fullShare xs.2.1 ∗ owns (c : Thread nD τ) scM0_2 fullShare xs.2.2.1 ∗ owns (c : Thread nD τ) scM0_3 fullShare xs.2.2.2.1 ∗ owns (c : Thread nD τ) scM0_4 fullShare xs.2.2.2.2) ∗ (∃ r, prngReg c r))

/-- The region's invariant before position n: what the launch hands over before the first point, afterwards the totals
    at what the point before left. -/
def PhiS (c : Dev nD) : (n : ℕ) → n ≤ cfg0.N → sProp 𝕄
  | 0, _ => Pipeline.ΦA spec0 c
  | n + 1, hn => totals c (outsAt0 m c n hn).2.2

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) : PhiS m c (n + 1) hn = totals c (outsAt0 m c n hn).2.2 := rfl

theorem PhiS_pos (c : Dev nD) (n : ℕ) (h : n ≤ cfg0.N) (hz : n ≠ 0) :
    PhiS m c n h = totals c (outsAt0 m c (n - 1) (by omega)).2.2 := by
  cases n with
  | zero => exact absurd rfl hz
  | succ n => rfl

/-- The region's proof data: after the body at point t each input holds its block and the two outputs the point's contents;
    the invariant is PhiS; the row and the column window read one array, so each holds half of it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
    | ⟨5, _⟩ => (outsAt0 m c t.val t.isLt).2.1
  Φ t := PhiS m c t.val (Nat.le_of_lt_succ t.isLt)
  q := fun w => match w with
    | ⟨0, _⟩ => fullShare.left
    | ⟨1, _⟩ => fullShare.right
    | _ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]
theorem after0_5 (c : Dev nD) (t : Fin cfg0.N) : (dats m 0 c).after 5 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the launch's back: the totals' named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  unfold totals
  iintro ⟨⟨HS0, HS1, HS2, HS3, HS4⟩, Hg⟩
  isplitr [Hg]
  · isplitl [HS0]; · iexists _; iexact HS0
    isplitl [HS1]; · iexists _; iexact HS1
    isplitl [HS2]; · iexists _; iexact HS2
    isplitl [HS3]; · iexists _; iexact HS3
    iexists _; iexact HS4
  iexact Hg

theorem hout (c : Dev nD) : (dats m 0 c).Φ (Fin.last cfg0.N) ⊢ Pipeline.ΦA spec0 c :=
  Phi_out m c _ (by rw [Fin.val_last]; have : cfg0.N = 64 := N_0; omega)

/-- The body obligation's two sides at point t. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

end Cert.KernelIdeal.Hand

end
-- ==== Proof.KI.FrameBody.lean ====
/-
  The body obligation: at every point the case's run applies, taking the totals from the invariant and giving them back at the
  point's contents.
-/
import proofs.«431328_j9835475108099_1_alg».proof.Proof.KI.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Before any point the invariant gives at least what the launch hands over: the five totals' buffers at something. -/
theorem Phi_some (c : Dev nD) (t : Fin cfg0.N) : PhiS m c t.val (Nat.le_of_lt t.isLt) ⊢ (Pipeline.ΦA spec0 c : sProp 𝕄) := by
  by_cases hz : t.val = 0
  · rw [PhiS_zero m c _ _ hz]
  · exact (PhiS_castSucc m c t) ▸ Phi_out m c t.castSucc (by rw [Fin.coe_castSucc]; exact hz)

/-- The body where the column block is the first: the totals' buffers are handed over at anything, the outputs untouched. -/
theorem sound_body_A (c : Dev nD) (t : Fin cfg0.N) (h0 : t.val % 8 = 0) : bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    show (dats m 0 c).Φ t.succ = PhiS m c (t.val + 1) t.isLt from rfl, PhiS_succ, PhiS_castSucc m c t,
    show (dats m 0 c).leavesExact 0 t = owns (c : Thread nD τ) (ms0_0 t) fullShare ((dats m 0 c).after 0 t) from by
      unfold Dat.leavesExact; rw [liveAt0_0 t], after0_0,
    show (dats m 0 c).leavesExact 1 t = owns (c : Thread nD τ) (ms0_1 t) fullShare ((dats m 0 c).after 1 t) from by
      unfold Dat.leavesExact; rw [liveAt0_1 t], after0_1,
    show (dats m 0 c).leavesExact 2 t = owns (c : Thread nD τ) (ms0_2 t) fullShare ((dats m 0 c).after 2 t) from by
      unfold Dat.leavesExact; rw [liveAt0_2 t], after0_2,
    show (dats m 0 c).leavesExact 3 t = owns (c : Thread nD τ) (ms0_3 t) fullShare ((dats m 0 c).after 3 t) from by
      unfold Dat.leavesExact; rw [liveAt0_3 t], after0_3]
  have hN : t.val < 64 := lt_of_lt_of_eq t.isLt (show cfg0.N = 64 from N_0)
  have hc1 : ¬cond0_1 (grid0.coords t) := fun h => absurd ((hcond0_1 t).mp h) (by omega)
  rw [Dat.leavesExact_idle (dats m 0 c) 4 t (idleAt0_4 t hc1) (noFlush0_4 t hc1),
    Dat.leavesExact_idle (dats m 0 c) 5 t (idleAt0_5 t hc1) (noFlush0_5 t hc1)]
  rw [outsAt0_A m c t h0]
  unfold totals atA outsA; dsimp only
  have hΦ := Phi_some m c t
  rw [PhiA0_eq] at hΦ
  iintro ⟨HΦ, Ho, ⟨%d0, H0⟩, ⟨%d1, H1⟩, ⟨%d2, H2⟩, ⟨%d3, H3⟩, ⟨%d4, H4⟩, ⟨%d5, H5⟩⟩
  ihave HΦ := hΦ $$ HΦ
  icases HΦ with ⟨⟨HS0, HS1, HS2, HS3, HS4⟩, Hg⟩
  have key := (runA c (grid0.coords t) (bufsAt t) ((hcond0_0 t).mpr h0) (fun h => absurd ((hcond0_1 t).mp h) (by omega)) (iblk m c 0 t) (iblk m c 1 t) (iblk m c 2 t) (iblk m c 3 t)).2.2.2.2.2.2.2
  iapply (key _ _ Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  isplitl [HS3]; · iexact HS3
  isplitl [HS4]; · iexact HS4
  iintro ⟨H0, H1, H2, H3, H4, H5, ⟨%es0, HS0⟩, ⟨%es1, HS1⟩, ⟨%es2, HS2⟩, ⟨%es3, HS3⟩, ⟨%es4, HS4⟩⟩
  isplitl [HS0 HS1 HS2 HS3 HS4 Hg]
  · isplitr [Hg]
    · isplitl [HS0]
      · unfold owns; iexists _; isplitr
        swap; · iexact HS0
        ipureintro; exact View.read_writes_eq_canon _ _ _ (scover0_A_0 c (grid0.coords t) (bufsAt t) _ _ _ _ _ _)
      isplitl [HS1]
      · unfold owns; iexists _; isplitr
        swap; · iexact HS1
        ipureintro; exact View.read_writes_eq_canon _ _ _ (scover0_A_1 c (grid0.coords t) (bufsAt t) _ _ _ _ _ _)
      isplitl [HS2]
      · unfold owns; iexists _; isplitr
        swap; · iexact HS2
        ipureintro; exact View.read_writes_eq_canon _ _ _ (scover0_A_2 c (grid0.coords t) (bufsAt t) _ _ _ _ _ _)
      isplitl [HS3]
      · unfold owns; iexists _; isplitr
        swap; · iexact HS3
        ipureintro; exact View.read_writes_eq_canon _ _ _ (scover0_A_3 c (grid0.coords t) (bufsAt t) _ _ _ _ _ _)
      unfold owns; iexists _; isplitr
      swap; · iexact HS4
      ipureintro; exact View.read_writes_eq_canon _ _ _ (scover0_A_4 c (grid0.coords t) (bufsAt t) _ _ _ _ _ _)
    iexact Hg
  isplitl [Ho]; · iexact Ho
  isplitl [H0]; · iexact H0
  isplitl [H1]; · iexact H1
  isplitl [H2]; · iexact H2
  isplitl [H3]; · iexact H3
  isplitl [H4]; · iexists _; iexact H4
  iexists _; iexact H5

/-- Where it is neither the first nor the last: the totals are taken at what the point before left. -/
theorem sound_body_B (c : Dev nD) (t : Fin cfg0.N) (h0 : ¬t.val % 8 = 0) (h1 : ¬t.val % 8 = 7) : bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    show (dats m 0 c).Φ t.succ = PhiS m c (t.val + 1) t.isLt from rfl, PhiS_succ, PhiS_castSucc m c t,
    show (dats m 0 c).leavesExact 0 t = owns (c : Thread nD τ) (ms0_0 t) fullShare ((dats m 0 c).after 0 t) from by
      unfold Dat.leavesExact; rw [liveAt0_0 t], after0_0,
    show (dats m 0 c).leavesExact 1 t = owns (c : Thread nD τ) (ms0_1 t) fullShare ((dats m 0 c).after 1 t) from by
      unfold Dat.leavesExact; rw [liveAt0_1 t], after0_1,
    show (dats m 0 c).leavesExact 2 t = owns (c : Thread nD τ) (ms0_2 t) fullShare ((dats m 0 c).after 2 t) from by
      unfold Dat.leavesExact; rw [liveAt0_2 t], after0_2,
    show (dats m 0 c).leavesExact 3 t = owns (c : Thread nD τ) (ms0_3 t) fullShare ((dats m 0 c).after 3 t) from by
      unfold Dat.leavesExact; rw [liveAt0_3 t], after0_3]
  have hN : t.val < 64 := lt_of_lt_of_eq t.isLt (show cfg0.N = 64 from N_0)
  have hc1 : ¬cond0_1 (grid0.coords t) := fun h => h1 ((hcond0_1 t).mp h)
  rw [Dat.leavesExact_idle (dats m 0 c) 4 t (idleAt0_4 t hc1) (noFlush0_4 t hc1),
    Dat.leavesExact_idle (dats m 0 c) 5 t (idleAt0_5 t hc1) (noFlush0_5 t hc1)]
  rw [outsAt0_B m c t h0 h1, PhiS_pos m c _ _ (fun hz => h0 (by rw [hz]))]
  unfold totals atB outsB; dsimp only
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩⟩
  have key := (runB c (grid0.coords t) (bufsAt t) (fun h => h0 ((hcond0_0 t).mp h)) (fun h => h1 ((hcond0_1 t).mp h)) (iblk m c 0 t) (iblk m c 1 t) (iblk m c 2 t) (iblk m c 3 t) (prev0 m c t)).2.2.2.2.2.2.2
  iapply (key _ _ Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  isplitl [HS3]; · iexact HS3
  isplitl [HS4]; · iexact HS4
  iintro ⟨H0, H1, H2, H3, H4, H5, ⟨%es0, HS0⟩, ⟨%es1, HS1⟩, ⟨%es2, HS2⟩, ⟨%es3, HS3⟩, ⟨%es4, HS4⟩⟩
  isplitl [HS0 HS1 HS2 HS3 HS4 Hg]
  · isplitr [Hg]
    · isplitl [HS0]
      · unfold owns; iexists _; isplitr
        swap; · iexact HS0
        ipureintro; exact View.read_writes_eq_canon _ _ _ (scover0_B_0 c (grid0.coords t) (bufsAt t) _ _ _ _ _ _ _)
      isplitl [HS1]
      · unfold owns; iexists _; isplitr
        swap; · iexact HS1
        ipureintro; exact View.read_writes_eq_canon _ _ _ (scover0_B_1 c (grid0.coords t) (bufsAt t) _ _ _ _ _ _ _)
      isplitl [HS2]
      · unfold owns; iexists _; isplitr
        swap; · iexact HS2
        ipureintro; exact View.read_writes_eq_canon _ _ _ (scover0_B_2 c (grid0.coords t) (bufsAt t) _ _ _ _ _ _ _)
      isplitl [HS3]
      · unfold owns; iexists _; isplitr
        swap; · iexact HS3
        ipureintro; exact View.read_writes_eq_canon _ _ _ (scover0_B_3 c (grid0.coords t) (bufsAt t) _ _ _ _ _ _ _)
      unfold owns; iexists _; isplitr
      swap; · iexact HS4
      ipureintro; exact View.read_writes_eq_canon _ _ _ (scover0_B_4 c (grid0.coords t) (bufsAt t) _ _ _ _ _ _ _)
    iexact Hg
  isplitl [Ho]; · iexact Ho
  isplitl [H0]; · iexact H0
  isplitl [H1]; · iexact H1
  isplitl [H2]; · iexact H2
  isplitl [H3]; · iexact H3
  isplitl [H4]; · iexists _; iexact H4
  iexists _; iexact H5

/-- Where it is the last: the two outputs are written too. -/
theorem sound_body_C (c : Dev nD) (t : Fin cfg0.N) (h1 : t.val % 8 = 7) : bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    show (dats m 0 c).Φ t.succ = PhiS m c (t.val + 1) t.isLt from rfl, PhiS_succ, PhiS_castSucc m c t,
    show (dats m 0 c).leavesExact 0 t = owns (c : Thread nD τ) (ms0_0 t) fullShare ((dats m 0 c).after 0 t) from by
      unfold Dat.leavesExact; rw [liveAt0_0 t], after0_0,
    show (dats m 0 c).leavesExact 1 t = owns (c : Thread nD τ) (ms0_1 t) fullShare ((dats m 0 c).after 1 t) from by
      unfold Dat.leavesExact; rw [liveAt0_1 t], after0_1,
    show (dats m 0 c).leavesExact 2 t = owns (c : Thread nD τ) (ms0_2 t) fullShare ((dats m 0 c).after 2 t) from by
      unfold Dat.leavesExact; rw [liveAt0_2 t], after0_2,
    show (dats m 0 c).leavesExact 3 t = owns (c : Thread nD τ) (ms0_3 t) fullShare ((dats m 0 c).after 3 t) from by
      unfold Dat.leavesExact; rw [liveAt0_3 t], after0_3]
  have hN : t.val < 64 := lt_of_lt_of_eq t.isLt (show cfg0.N = 64 from N_0)
  have hc1 : cond0_1 (grid0.coords t) := (hcond0_1 t).mpr h1
  rw [show (dats m 0 c).leavesExact 4 t = owns (c : Thread nD τ) (ms0_4 t) fullShare ((dats m 0 c).after 4 t) from by
      unfold Dat.leavesExact; rw [liveAt0_4 t hc1], after0_4,
    show (dats m 0 c).leavesExact 5 t = owns (c : Thread nD τ) (ms0_5 t) fullShare ((dats m 0 c).after 5 t) from by
      unfold Dat.leavesExact; rw [liveAt0_5 t hc1], after0_5,
    outsAt0_C m c t h1, PhiS_pos m c _ _ (by omega)]
  unfold totals atC outsC; dsimp only
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩⟩
  have key := (runC c (grid0.coords t) (bufsAt t) (fun h => absurd ((hcond0_0 t).mp h) (by omega)) ((hcond0_1 t).mpr h1) (iblk m c 0 t) (iblk m c 1 t) (iblk m c 2 t) (iblk m c 3 t) (prev0 m c t)).2.2.2.2.2.2.2
  iapply (key Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [HS0]; · iexact HS0
  isplitl [HS1]; · iexact HS1
  isplitl [HS2]; · iexact HS2
  isplitl [HS3]; · iexact HS3
  isplitl [HS4]; · iexact HS4
  iintro ⟨H0, H1, H2, H3, ⟨%e4, H4⟩, ⟨%e5, H5⟩, ⟨%es0, HS0⟩, ⟨%es1, HS1⟩, ⟨%es2, HS2⟩, ⟨%es3, HS3⟩, ⟨%es4, HS4⟩⟩
  isplitl [HS0 HS1 HS2 HS3 HS4 Hg]
  · isplitr [Hg]
    · isplitl [HS0]
      · unfold owns; iexists _; isplitr
        swap; · iexact HS0
        ipureintro; exact View.read_writes_eq_canon _ _ _ (scover0_C_0 c (grid0.coords t) (bufsAt t) _ _ _ _ _ _ _)
      isplitl [HS1]
      · unfold owns; iexists _; isplitr
        swap; · iexact HS1
        ipureintro; exact View.read_writes_eq_canon _ _ _ (scover0_C_1 c (grid0.coords t) (bufsAt t) _ _ _ _ _ _ _)
      isplitl [HS2]
      · unfold owns; iexists _; isplitr
        swap; · iexact HS2
        ipureintro; exact View.read_writes_eq_canon _ _ _ (scover0_C_2 c (grid0.coords t) (bufsAt t) _ _ _ _ _ _ _)
      isplitl [HS3]
      · unfold owns; iexists _; isplitr
        swap; · iexact HS3
        ipureintro; exact View.read_writes_eq_canon _ _ _ (scover0_C_3 c (grid0.coords t) (bufsAt t) _ _ _ _ _ _ _)
      unfold owns; iexists _; isplitr
      swap; · iexact HS4
      ipureintro; exact View.read_writes_eq_canon _ _ _ (scover0_C_4 c (grid0.coords t) (bufsAt t) _ _ _ _ _ _ _)
    iexact Hg
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_eq_canon _ _ _ (cover0_C_4 c (grid0.coords t) (bufsAt t) _ _ _ _ _ _ _)
  unfold owns; iexists _; isplitr
  swap; · iexact H5
  ipureintro; exact View.read_writes_eq_canon _ _ _ (cover0_C_5 c (grid0.coords t) (bufsAt t) _ _ _ _ _ _ _)

/-- The library's body obligation at every point: the column block selects the case. -/
theorem body_obligation (c : Dev nD) : BodyObligation (dats (F := F) m 0 c) (defs₀ (F := F)) Variants.none () Set.univ := fun t => by
  rw [bigSep_W0, bigSep_W0]
  by_cases h1 : t.val % 8 = 7
  · exact sound_body_C m c t h1
  · by_cases h0 : t.val % 8 = 0
    · exact sound_body_A m c t h0
    · exact sound_body_B m c t h0 h1

end Cert.KernelIdeal.Hand

end
-- ==== Proof.KI.Launch.lean ====
/-
  @main's run: the operations before the region, the region, and the operations after it; the row and the column window read one
  array, so each holds half of it.
-/
import proofs.«431328_j9835475108099_1_alg».proof.Proof.KI.Kit
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

def exitVal (c : Dev nD) (o0 : Buf (Elt F) ((c : Thread nD τ).loc main_v7_0)) (o1 : Buf (Elt F) ((c : Thread nD τ).loc main_v7_1)) :
    Valuation τ sig (Elt F) :=
  Function.update (Function.update (V0 m c) (Proc.devRef .tc main_v7_0) o0) (Proc.devRef .tc main_v7_1) o1

theorem exitVal_v7_0 (c : Dev nD) (o0 : Buf (Elt F) ((c : Thread nD τ).loc main_v7_0)) (o1 : Buf (Elt F) ((c : Thread nD τ).loc main_v7_1)) :
    exitVal m c o0 o1 (Proc.devRef .tc main_v7_0) = o0 := by
  unfold exitVal
  rw [Function.update_of_ne (StableHlo.devRef_ne_of_ne (by decide)), Function.update_self]
theorem exitVal_v7_1 (c : Dev nD) (o0 : Buf (Elt F) ((c : Thread nD τ).loc main_v7_0)) (o1 : Buf (Elt F) ((c : Thread nD τ).loc main_v7_1)) :
    exitVal m c o0 o1 (Proc.devRef .tc main_v7_1) = o1 := by
  unfold exitVal
  rw [Function.update_self]

theorem exitVal_of_ne (c : Dev nD) (o0 : Buf (Elt F) ((c : Thread nD τ).loc main_v7_0)) (o1 : Buf (Elt F) ((c : Thread nD τ).loc main_v7_1))
    (b : Ref sig .tc) (h0 : b ≠ main_v7_0) (h1 : b ≠ main_v7_1) :
    exitVal m c o0 o1 (Proc.devRef .tc b) = V m c b := by
  unfold exitVal
  rw [Function.update_of_ne (StableHlo.devRef_ne_of_ne h1), Function.update_of_ne (StableHlo.devRef_ne_of_ne h0)]

def tailVal (c : Dev nD) (o0 : Buf (Elt F) ((c : Thread nD τ).loc main_v7_0)) (o1 : Buf (Elt F) ((c : Thread nD τ).loc main_v7_1)) :
    Buf (Elt F) ((c : Thread nD τ).loc main_v13) :=
  StableHlo.after hostOps1 (exitVal m c o0 o1) (Proc.devRef .tc main_v13)

theorem tailVal_eq (c : Dev nD) (o0 : Buf (Elt F) ((c : Thread nD τ).loc main_v7_0)) (o1 : Buf (Elt F) ((c : Thread nD τ).loc main_v7_1)) :
    tailVal m c o0 o1
      = addf (mulf (constant (F := F) S_ .f32 0xBF800000#32)
            (Host.divf (Host.reduceAdd o0 (constant (F := F) S_ .f32 0x00000000#32) reducesTo_S4096x1_S_d0_1 h_S_) (constant (F := F) S_ .f32 0x45800000#32)))
          (mulf (constant (F := F) S_ .f32 0xBBA3D70A#32) (Host.reduceAdd o1 (constant (F := F) S_ .f32 0x00000000#32) reducesTo_S4096x1_S_d0_1 h_S_)) := by
  unfold tailVal hostOps1
  after_results
  rw [exitVal_v7_0, exitVal_v7_1]

theorem share_w0 {c : Dev nD} (dat : Dat τ (Elt F) Unit ℕ (UR sig nD τ) ℕ cfg0 c) : dat.share 0 = dat.q 0 := by unfold Dat.share; rfl
theorem share_w1 {c : Dev nD} (dat : Dat τ (Elt F) Unit ℕ (UR sig nD τ) ℕ cfg0 c) : dat.share 1 = dat.q 1 := by unfold Dat.share; rfl
theorem share_w2 {c : Dev nD} (dat : Dat τ (Elt F) Unit ℕ (UR sig nD τ) ℕ cfg0 c) : dat.share 2 = dat.q 2 := by unfold Dat.share; rfl
theorem share_w3 {c : Dev nD} (dat : Dat τ (Elt F) Unit ℕ (UR sig nD τ) ℕ cfg0 c) : dat.share 3 = dat.q 3 := by unfold Dat.share; rfl
theorem share_w4 {c : Dev nD} (dat : Dat τ (Elt F) Unit ℕ (UR sig nD τ) ℕ cfg0 c) : dat.share 4 = fullShare := by unfold Dat.share; rfl
theorem share_w5 {c : Dev nD} (dat : Dat τ (Elt F) Unit ℕ (UR sig nD τ) ℕ cfg0 c) : dat.share 5 = fullShare := by unfold Dat.share; rfl

theorem arrays_eq6 {c : Dev nD} (dat : Dat τ (Elt F) Unit ℕ (UR sig nD τ) ℕ cfg0 c)
    (hq0 : dat.q 0 = fullShare.left) (hq1 : dat.q 1 = fullShare.right) (hq2 : dat.q 2 = fullShare) (hq3 : dat.q 3 = fullShare)
    (G : (w : Fin cfg0.W) → Buf (Elt F) ((cfg0.win w).arr.view.loc (c.tc : Thread nD τ))) :
    (dat.arrays G : sProp 𝕄)
      = iprop((((c.tc : Thread nD τ).loc main_v1) ↦{fullShare.left} G 0) ∗ (((c.tc : Thread nD τ).loc main_v1) ↦{fullShare.right} G 1)
          ∗ (((c.tc : Thread nD τ).loc main_v5) ↦{fullShare} G 2) ∗ (((c.tc : Thread nD τ).loc main_v6) ↦{fullShare} G 3)
          ∗ (((c.tc : Thread nD τ).loc main_v7_0) ↦{fullShare} G 4) ∗ (((c.tc : Thread nD τ).loc main_v7_1) ↦{fullShare} G 5)) := by
  unfold Dat.arrays
  rw [bigSep_W0, share_w0, share_w1, share_w2, share_w3, share_w4, share_w5, hq0, hq1, hq2, hq3]
  simp only [View.set_whole]

theorem arrBufs_eq5 (c : Dev nD) (W : (b : Ref sig .tc) → Buf (Elt F) ((c.tc : Thread nD τ).loc b)) :
    (Pipeline.arrBufs spec0 c W : sProp 𝕄)
      = iprop((((c.tc : Thread nD τ).loc main_v1) ↦{fullShare} W main_v1) ∗ (((c.tc : Thread nD τ).loc main_v5) ↦{fullShare} W main_v5)
          ∗ (((c.tc : Thread nD τ).loc main_v6) ↦{fullShare} W main_v6) ∗ (((c.tc : Thread nD τ).loc main_v7_0) ↦{fullShare} W main_v7_0)
          ∗ (((c.tc : Thread nD τ).loc main_v7_1) ↦{fullShare} W main_v7_1)) := by
  unfold Pipeline.arrBufs
  exact bigSep_eq_bigSepL_of_eq [main_v1, main_v5, main_v6, main_v7_0, main_v7_1] (by decide) (by decide) _

theorem hsplit_main {c : Dev nD} (dat : Dat τ (Elt F) Unit ℕ (UR sig nD τ) ℕ cfg0 c)
    (hA : ∀ w, dat.A w = V m c (Pipeline.arrRef spec0 w))
    (hq0 : dat.q 0 = fullShare.left) (hq1 : dat.q 1 = fullShare.right) (hq2 : dat.q 2 = fullShare) (hq3 : dat.q 3 = fullShare) :
    (Pipeline.arrBufs spec0 c (V m c) : sProp 𝕄) ⊢ dat.arrays (dat.arrAt · 0) := by
  rw [arrays_eq6 dat hq0 hq1 hq2 hq3, arrBufs_eq5]
  rw [show dat.arrAt 0 0 = V m c main_v1 from hA 0, show dat.arrAt 1 0 = V m c main_v1 from hA 1,
    show dat.arrAt 2 0 = V m c main_v5 from hA 2, show dat.arrAt 3 0 = V m c main_v6 from hA 3,
    show dat.arrAt 4 0 = V m c main_v7_0 from hA 4, show dat.arrAt 5 0 = V m c main_v7_1 from hA 5]
  iintro ⟨H1, H5, H6, H70, H71⟩
  ihave H1 := (pointsTo_share (PosShare.mem_left_op_right fullShare)).1 $$ H1
  icases H1 with ⟨H1l, H1r⟩
  isplitl [H1l]; · iexact H1l
  isplitl [H1r]; · iexact H1r
  isplitl [H5]; · iexact H5
  isplitl [H6]; · iexact H6
  isplitl [H70]; · iexact H70
  iexact H71

abbrev tailRefs19 : List (Ref sig .tc) := [main_v7_0, main_v7_1, main_arg0, main_arg1, main_v0, main_v2, main_v3, main_v4, main_cst, main_v8, main_cst_0, main_v9, main_cst_1, main_v10, main_cst_2, main_v11, main_cst_3, main_v12, main_v13]
def tailS : Finset (DevRef τ sig) := tailRefs19.toFinset.map ⟨Proc.devRef (sig := sig) .tc, Proc.devRef_injective _⟩

theorem mem_tailS {r : Ref sig .tc} (h : r ∈ tailRefs19) : Proc.devRef (τ := τ) .tc r ∈ tailS :=
  Finset.mem_map.mpr ⟨r, List.mem_toFinset.mpr h, rfl⟩

theorem hostOps1_subS : (hostOps1 : List (HloOp τ sig (Elt F))).Forall fun op => op.bufs ⊆ tailS :=
  ⟨Finset.singleton_subset_iff.mpr (mem_tailS (by decide)),
   Finset.insert_subset_iff.mpr ⟨mem_tailS (by decide), Finset.insert_subset_iff.mpr ⟨mem_tailS (by decide), Finset.singleton_subset_iff.mpr (mem_tailS (by decide))⟩⟩,
   Finset.singleton_subset_iff.mpr (mem_tailS (by decide)),
   Finset.insert_subset_iff.mpr ⟨mem_tailS (by decide), Finset.insert_subset_iff.mpr ⟨mem_tailS (by decide), Finset.singleton_subset_iff.mpr (mem_tailS (by decide))⟩⟩,
   Finset.singleton_subset_iff.mpr (mem_tailS (by decide)),
   Finset.insert_subset_iff.mpr ⟨mem_tailS (by decide), Finset.insert_subset_iff.mpr ⟨mem_tailS (by decide), Finset.singleton_subset_iff.mpr (mem_tailS (by decide))⟩⟩,
   Finset.singleton_subset_iff.mpr (mem_tailS (by decide)),
   Finset.insert_subset_iff.mpr ⟨mem_tailS (by decide), Finset.insert_subset_iff.mpr ⟨mem_tailS (by decide), Finset.singleton_subset_iff.mpr (mem_tailS (by decide))⟩⟩,
   Finset.singleton_subset_iff.mpr (mem_tailS (by decide)),
   Finset.insert_subset_iff.mpr ⟨mem_tailS (by decide), Finset.insert_subset_iff.mpr ⟨mem_tailS (by decide), Finset.singleton_subset_iff.mpr (mem_tailS (by decide))⟩⟩,
   Finset.insert_subset_iff.mpr ⟨mem_tailS (by decide), Finset.insert_subset_iff.mpr ⟨mem_tailS (by decide), Finset.singleton_subset_iff.mpr (mem_tailS (by decide))⟩⟩⟩

theorem held_tailS (c : Dev nD) (Wv : Valuation τ sig (Elt F)) :
    (StableHlo.held (c.tc : Thread nD τ) tailS Wv : sProp 𝕄)
      = iprop((((c.tc : Thread nD τ).loc main_v7_0) ↦{fullShare} Wv (Proc.devRef .tc main_v7_0)) ∗ (((c.tc : Thread nD τ).loc main_v7_1) ↦{fullShare} Wv (Proc.devRef .tc main_v7_1)) ∗ (((c.tc : Thread nD τ).loc main_arg0) ↦{fullShare} Wv (Proc.devRef .tc main_arg0)) ∗ (((c.tc : Thread nD τ).loc main_arg1) ↦{fullShare} Wv (Proc.devRef .tc main_arg1)) ∗ (((c.tc : Thread nD τ).loc main_v0) ↦{fullShare} Wv (Proc.devRef .tc main_v0)) ∗ (((c.tc : Thread nD τ).loc main_v2) ↦{fullShare} Wv (Proc.devRef .tc main_v2)) ∗ (((c.tc : Thread nD τ).loc main_v3) ↦{fullShare} Wv (Proc.devRef .tc main_v3)) ∗ (((c.tc : Thread nD τ).loc main_v4) ↦{fullShare} Wv (Proc.devRef .tc main_v4)) ∗ (((c.tc : Thread nD τ).loc main_cst) ↦{fullShare} Wv (Proc.devRef .tc main_cst)) ∗ (((c.tc : Thread nD τ).loc main_v8) ↦{fullShare} Wv (Proc.devRef .tc main_v8)) ∗ (((c.tc : Thread nD τ).loc main_cst_0) ↦{fullShare} Wv (Proc.devRef .tc main_cst_0)) ∗ (((c.tc : Thread nD τ).loc main_v9) ↦{fullShare} Wv (Proc.devRef .tc main_v9)) ∗ (((c.tc : Thread nD τ).loc main_cst_1) ↦{fullShare} Wv (Proc.devRef .tc main_cst_1)) ∗ (((c.tc : Thread nD τ).loc main_v10) ↦{fullShare} Wv (Proc.devRef .tc main_v10)) ∗ (((c.tc : Thread nD τ).loc main_cst_2) ↦{fullShare} Wv (Proc.devRef .tc main_cst_2)) ∗ (((c.tc : Thread nD τ).loc main_v11) ↦{fullShare} Wv (Proc.devRef .tc main_v11)) ∗ (((c.tc : Thread nD τ).loc main_cst_3) ↦{fullShare} Wv (Proc.devRef .tc main_cst_3)) ∗ (((c.tc : Thread nD τ).loc main_v12) ↦{fullShare} Wv (Proc.devRef .tc main_v12)) ∗ (((c.tc : Thread nD τ).loc main_v13) ↦{fullShare} Wv (Proc.devRef .tc main_v13))) := by
  unfold StableHlo.held tailS
  rw [bigSep_map]
  exact bigSep_eq_bigSepL tailRefs19 (by decide) _

abbrev endVal (c : Dev nD) (o0 : Buf (Elt F) ((c : Thread nD τ).loc main_v7_0)) (o1 : Buf (Elt F) ((c : Thread nD τ).loc main_v7_1)) :
    Valuation τ sig (Elt F) := StableHlo.after hostOps1 (exitVal m c o0 o1)

theorem endVal_v7_0 (c : Dev nD) (o0 : Buf (Elt F) ((c : Thread nD τ).loc main_v7_0)) (o1 : Buf (Elt F) ((c : Thread nD τ).loc main_v7_1)) :
    endVal m c o0 o1 (Proc.devRef .tc main_v7_0) = o0 := by
  unfold endVal hostOps1
  after_results
  exact exitVal_v7_0 m c o0 o1
theorem endVal_v7_1 (c : Dev nD) (o0 : Buf (Elt F) ((c : Thread nD τ).loc main_v7_0)) (o1 : Buf (Elt F) ((c : Thread nD τ).loc main_v7_1)) :
    endVal m c o0 o1 (Proc.devRef .tc main_v7_1) = o1 := by
  unfold endVal hostOps1
  after_results
  exact exitVal_v7_1 m c o0 o1

theorem held_exit (c : Dev nD) (o0 : Buf (Elt F) ((c : Thread nD τ).loc main_v7_0)) (o1 : Buf (Elt F) ((c : Thread nD τ).loc main_v7_1)) :
    (StableHlo.held (c.tc : Thread nD τ) tailS (exitVal m c o0 o1) : sProp 𝕄)
      = iprop((((c.tc : Thread nD τ).loc main_v7_0) ↦{fullShare} o0) ∗ (((c.tc : Thread nD τ).loc main_v7_1) ↦{fullShare} o1) ∗ (((c.tc : Thread nD τ).loc main_arg0) ↦{fullShare} V m c main_arg0) ∗ (((c.tc : Thread nD τ).loc main_arg1) ↦{fullShare} V m c main_arg1) ∗ (((c.tc : Thread nD τ).loc main_v0) ↦{fullShare} V m c main_v0) ∗ (((c.tc : Thread nD τ).loc main_v2) ↦{fullShare} V m c main_v2) ∗ (((c.tc : Thread nD τ).loc main_v3) ↦{fullShare} V m c main_v3) ∗ (((c.tc : Thread nD τ).loc main_v4) ↦{fullShare} V m c main_v4) ∗ (((c.tc : Thread nD τ).loc main_cst) ↦{fullShare} V m c main_cst) ∗ (((c.tc : Thread nD τ).loc main_v8) ↦{fullShare} V m c main_v8) ∗ (((c.tc : Thread nD τ).loc main_cst_0) ↦{fullShare} V m c main_cst_0) ∗ (((c.tc : Thread nD τ).loc main_v9) ↦{fullShare} V m c main_v9) ∗ (((c.tc : Thread nD τ).loc main_cst_1) ↦{fullShare} V m c main_cst_1) ∗ (((c.tc : Thread nD τ).loc main_v10) ↦{fullShare} V m c main_v10) ∗ (((c.tc : Thread nD τ).loc main_cst_2) ↦{fullShare} V m c main_cst_2) ∗ (((c.tc : Thread nD τ).loc main_v11) ↦{fullShare} V m c main_v11) ∗ (((c.tc : Thread nD τ).loc main_cst_3) ↦{fullShare} V m c main_cst_3) ∗ (((c.tc : Thread nD τ).loc main_v12) ↦{fullShare} V m c main_v12) ∗ (((c.tc : Thread nD τ).loc main_v13) ↦{fullShare} V m c main_v13)) := by
  rw [held_tailS, exitVal_v7_0, exitVal_v7_1,
    exitVal_of_ne m c o0 o1 main_arg0 (by decide) (by decide),
    exitVal_of_ne m c o0 o1 main_arg1 (by decide) (by decide),
    exitVal_of_ne m c o0 o1 main_v0 (by decide) (by decide),
    exitVal_of_ne m c o0 o1 main_v2 (by decide) (by decide),
    exitVal_of_ne m c o0 o1 main_v3 (by decide) (by decide),
    exitVal_of_ne m c o0 o1 main_v4 (by decide) (by decide),
    exitVal_of_ne m c o0 o1 main_cst (by decide) (by decide),
    exitVal_of_ne m c o0 o1 main_v8 (by decide) (by decide),
    exitVal_of_ne m c o0 o1 main_cst_0 (by decide) (by decide),
    exitVal_of_ne m c o0 o1 main_v9 (by decide) (by decide),
    exitVal_of_ne m c o0 o1 main_cst_1 (by decide) (by decide),
    exitVal_of_ne m c o0 o1 main_v10 (by decide) (by decide),
    exitVal_of_ne m c o0 o1 main_cst_2 (by decide) (by decide),
    exitVal_of_ne m c o0 o1 main_v11 (by decide) (by decide),
    exitVal_of_ne m c o0 o1 main_cst_3 (by decide) (by decide),
    exitVal_of_ne m c o0 o1 main_v12 (by decide) (by decide),
    exitVal_of_ne m c o0 o1 main_v13 (by decide) (by decide)]

set_option backward.isDefEq.respectTransparency.types false in

theorem htail_gen {c : Dev nD} (dat : Dat τ (Elt F) Unit ℕ (UR sig nD τ) ℕ cfg0 c)
    (hq0 : dat.q 0 = fullShare.left) (hq1 : dat.q 1 = fullShare.right) (hq2 : dat.q 2 = fullShare) (hq3 : dat.q 3 = fullShare)
    (ops : List (HloOp τ sig (Elt F))) (hsub : ∀ op ∈ ops, op.bufs ⊆ tailS) (hfresh : ∀ op ∈ ops, op.fresh = ∅)
    (hk0 : StableHlo.after ops (exitVal m c (dat.arrAt 4 cfg0.N) (dat.arrAt 5 cfg0.N)) (Proc.devRef .tc main_v7_0) = dat.arrAt 4 cfg0.N)
    (hk1 : StableHlo.after ops (exitVal m c (dat.arrAt 4 cfg0.N) (dat.arrAt 5 cfg0.N)) (Proc.devRef .tc main_v7_1) = dat.arrAt 5 cfg0.N)
    (Q' : PUnit → sProp 𝕄) :
    iprop((iprop(dat.arrays (dat.arrAt · cfg0.N)
              ∗ Pipeline.unscopedRest (Ix := Unit) (Name := ℕ) (U := UR sig nD τ) (Lvl := ℕ) spec0 c
                  (fun b => StableHlo.after ops (exitVal m c (dat.arrAt 4 cfg0.N) (dat.arrAt 5 cfg0.N)) (Proc.devRef .tc b))) -∗ Q' ⟨⟩)
        ∗ boundary (c.tc : Thread nD τ) ∗ dat.arrays (dat.arrAt · cfg0.N)
        ∗ Pipeline.unscopedRest (Ix := Unit) (Name := ℕ) (U := UR sig nD τ) (Lvl := ℕ) spec0 c (V m c))
      ⊢ wp frame (wpE (Pipeline.defs (pcfgs (F := F)) defs₀) (Variants.lift Variants.none) (c.tc : Thread nD τ) none) Set.univ
          (Pipeline.chain [StableHlo.seq ops]) Q' := by
  have hW := held_exit m c (dat.arrAt 4 cfg0.N) (dat.arrAt 5 cfg0.N)
  have hfl : [ops].flatten = ops := by simp
  have hW' := held_tailS (F := F) c (StableHlo.after ops (exitVal m c (dat.arrAt 4 cfg0.N) (dat.arrAt 5 cfg0.N)))
  rw [hk0, hk1] at hW'
  rw [arrays_eq6 dat hq0 hq1 hq2 hq3, unscopedRest0_eq, unscopedRest0_eq,
    show [StableHlo.seq (nD := nD) (Λ := Pipeline.Sig Λ₀ (Fin 1) fun p => (pcfgs (F := F) p).Adm) ops] = [ops].map StableHlo.seq ++ [] from rfl]
  iintro ⟨Hk, Hb, ⟨H1l, H1r, H5, H6, H70, H71⟩, ⟨H_arg0, H_arg1, H_v0, H_v2, H_v3, H_v4, H_cst, H_v8, H_cst_0, H_v9, H_cst_1, H_v10, H_cst_2, H_v11, H_cst_3, H_v12, H_v13⟩⟩
  iapply (Pipeline.wp_seqs_then (pcfgs (F := F)) defs₀ Variants.none c tailS [] [ops]
    (fun o ho op h => by rw [List.mem_singleton] at ho; subst ho; exact hsub op h)
    (fun o ho op h => by rw [List.mem_singleton] at ho; subst ho; exact hfresh op h)
    (exitVal m c (dat.arrAt 4 cfg0.N) (dat.arrAt 5 cfg0.N))) $$ [Hb H70 H71 H_arg0 H_arg1 H_v0 H_v2 H_v3 H_v4 H_cst H_v8 H_cst_0 H_v9 H_cst_1 H_v10 H_cst_2 H_v11 H_cst_3 H_v12 H_v13]
  · rw [hW]
    iframe
  iintro Hb
  rw [Pipeline.chain_nil, wp_pure, hfl, hW']
  imodintro
  iapply Hk
  icases Hb with ⟨-, H70, H71, H_arg0, H_arg1, H_v0, H_v2, H_v3, H_v4, H_cst, H_v8, H_cst_0, H_v9, H_cst_1, H_v10, H_cst_2, H_v11, H_cst_3, H_v12, H_v13⟩
  iframe

theorem V_arg0 (c : Dev nD) : V m c main_arg0 = m ((c.tc : Thread nD τ).loc main_arg0) := by
  simp only [V, V0, hostOps0, List.flatten_cons, List.flatten_nil, List.append_nil]
  after_results
theorem V_arg1 (c : Dev nD) : V m c main_arg1 = m ((c.tc : Thread nD τ).loc main_arg1) := by
  simp only [V, V0, hostOps0, List.flatten_cons, List.flatten_nil, List.append_nil]
  after_results

theorem endVal_arg0 (c : Dev nD) (o0 : Buf (Elt F) ((c : Thread nD τ).loc main_v7_0)) (o1 : Buf (Elt F) ((c : Thread nD τ).loc main_v7_1)) :
    endVal m c o0 o1 (Proc.devRef .tc main_arg0) = m ((c.tc : Thread nD τ).loc main_arg0) := by
  unfold endVal hostOps1
  after_results
  rw [exitVal_of_ne m c o0 o1 main_arg0 (by decide) (by decide), V_arg0]
theorem endVal_arg1 (c : Dev nD) (o0 : Buf (Elt F) ((c : Thread nD τ).loc main_v7_0)) (o1 : Buf (Elt F) ((c : Thread nD τ).loc main_v7_1)) :
    endVal m c o0 o1 (Proc.devRef .tc main_arg1) = m ((c.tc : Thread nD τ).loc main_arg1) := by
  unfold endVal hostOps1
  after_results
  rw [exitVal_of_ne m c o0 o1 main_arg1 (by decide) (by decide), V_arg1]

theorem v13_mem_rest : main_v13 ∈ Pipeline.restRefs sig spec0 := Pipeline.mem_restRefs_of main_v13 rfl (by decide)
theorem arg0_mem_rest : main_arg0 ∈ Pipeline.restRefs sig spec0 := Pipeline.mem_restRefs_of main_arg0 rfl (by decide)
theorem arg1_mem_rest : main_arg1 ∈ Pipeline.restRefs sig spec0 := Pipeline.mem_restRefs_of main_arg1 rfl (by decide)

set_option backward.isDefEq.respectTransparency.types false in

theorem run_main (dats : (p : Fin 1) → (c : Dev nD) → Dat τ (Elt F) Unit ℕ (UR sig nD τ) ℕ (cfgs p) c)
    (hA : ∀ c w, (dats 0 c).A w = V m c (Pipeline.arrRef spec0 w))
    (hq0 : ∀ c, (dats 0 c).q 0 = fullShare.left) (hq1 : ∀ c, (dats 0 c).q 1 = fullShare.right)
    (hq2 : ∀ c, (dats 0 c).q 2 = fullShare) (hq3 : ∀ c, (dats 0 c).q 3 = fullShare)
    (howed : ∀ c t, (dats 0 c).owed t = 0)
    (hbody : ∀ c, Pipeline.BodyObligationLoose (dats 0 c) defs₀ Variants.none () Set.univ)
    (hin : ∀ c, Pipeline.ΦA spec0 c ⊢ (dats 0 c).Φ 0) (hout : ∀ c, (dats 0 c).Φ (Fin.last cfg0.N) ⊢ Pipeline.ΦA spec0 c) :
    θ_run defs (onTc (τ := τ) (main (F := F))) ⟨m, fun _ => 0, ρ⟩ (fun r => ∀ c : Dev nD,
      r.2.mem ((c.tc : Thread nD τ).loc main_v13) = tailVal m c ((dats 0 c).arrAt 4 cfg0.N) ((dats 0 c).arrAt 5 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  classical
  exact Pipeline.θ_run_region_pf_tail (pcfgs (F := F)) (fun p => (cfgs p).toPCfg_adm) dats () cellOf_inj 0 winFacts₀0
    (Pipeline.OwnSemFacts.none _) (Pipeline.PreFacts.none _) emb₁ defs₀ Variants.none m ρ main
    (fun _ => Pipeline.chain [StableHlo.seq hostOps1]) hbody block_pos0 arr_whole0 stage_whole0 howed
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro) (V := V m) (hmain := hmain m Variants.none)
    (hsplit := fun c => hsplit_main m (dats 0 c) (hA c) (hq0 c) (hq1 c) (hq2 c) (hq3 c)) (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (V m c))
    (Z' := fun c => Pipeline.unscopedRest (Ix := Unit) (Name := ℕ) (U := UR sig nD τ) (Lvl := ℕ) spec0 c
      (fun b => endVal m c ((dats 0 c).arrAt 4 cfg0.N) ((dats 0 c).arrAt 5 cfg0.N) (Proc.devRef .tc b)))
    (hX := fun c => by
      rw [Pipeline.unscopedRestP_none]
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin c))
    (hout := fun c => (hout c).trans (by
      rw [Pipeline.ownSems0_none]; unfold Pipeline.ΦA
      iintro ⟨Hr, Hp⟩
      isplitl [Hp]; · iexact Hp
      isplitr; · iempintro
      iexact Hr))
    (htail := fun c Q' => htail_gen m (dats 0 c) (hq0 c) (hq1 c) (hq2 c) (hq3 c) hostOps1
      (List.forall_iff_forall_mem (p := fun op : HloOp τ sig (Elt F) => op.bufs ⊆ tailS).mp hostOps1_subS)
      (List.forall_iff_forall_mem (p := fun op : HloOp τ sig (Elt F) => op.fresh = ∅).mp hostOps1_fresh)
      (endVal_v7_0 m c _ _) (endVal_v7_1 m c _ _) Q')
    (QY := fun c s => ∀ b ∈ Pipeline.restRefs sig spec0, s.mem ((c.tc : Thread nD τ).loc b)
      = endVal m c ((dats 0 c).arrAt 4 cfg0.N) ((dats 0 c).arrAt 5 cfg0.N) (Proc.devRef .tc b))
    (hY := fun c s' => by
      iintro ⟨-, HU, HSI⟩
      unfold Pipeline.unscopedRest
      imodintro
      iapply (pointsTo_read_all (Pipeline.restRefs sig spec0) (fun b => (c.tc : Thread nD τ).loc b)
        (fun b => endVal m c ((dats 0 c).arrAt 4 cfg0.N) ((dats 0 c).arrAt 5 cfg0.N) (Proc.devRef .tc b)) s')
      isplitl [HU] <;> iassumption)
    (hQ := fun s h c => ⟨(h c).2.2 main_v13 v13_mem_rest,
      ((h c).2.2 main_arg0 arg0_mem_rest).trans (endVal_arg0 m c _ _),
      ((h c).2.2 main_arg1 arg1_mem_rest).trans (endVal_arg1 m c _ _)⟩)

end Cert.KernelIdeal.Hand

end
-- ==== Proof.K.Kit.lean ====
/-
  What the body's three runs and the launch share: the arrays as the region finds them, each window's block at a grid point, the
  body's two branch conditions in closed form over the 64 points (t % 8 = 0 and t % 8 = 7), and the memrefs the body is called with.
-/
import proofs.«431328_j9835475108099_1_alg».proof.Proof.Gen.Kernel.Launch
import proofs.«431328_j9835475108099_1_alg».proof.Proof.Gen.Kernel.Skeleton
import proofs.«431328_j9835475108099_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V0 (c : Dev nD) : Valuation τ sig (Elt F) := StableHlo.after (List.flatten [hostOps0]) (fun b => m (c, b))

abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel

theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel

theorem liveAt0_4 : ∀ t : Fin cfg0.N, cond0_1 (grid0.coords t) → cfg0.idle 4 (grid0.coords t) = false := by decide +kernel
theorem liveAt0_5 : ∀ t : Fin cfg0.N, cond0_1 (grid0.coords t) → cfg0.idle 5 (grid0.coords t) = false := by decide +kernel

abbrev VO0_4 : View sig .tc .vmem S512x1 .f32 := (Memref.whole cc0_stg4_0 : Memref sig .tc .vmem S512x1 .f32).view
abbrev VO0_5 : View sig .tc .vmem S512x1 .f32 := (Memref.whole cc0_stg5_0 : Memref sig .tc .vmem S512x1 .f32).view

abbrev ms0_0 (t : Fin cfg0.N) : Memref sig .tc .vmem S512x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1 .f32 := win0_5.stage (cfg0.slots t 5)
abbrev hs0_5 (t : Fin cfg0.N) : (ms0_5 t).IsWhole := hstage0_5 ((cfg0.slots t 5).cast nbuf0_5)

abbrev scM0_0 : Memref sig .tc .vmem S512x1 .f32 := Memref.whole cc0_scratch0
abbrev scM0_1 : Memref sig .tc .vmem S512x1 .f32 := Memref.whole cc0_scratch1
abbrev scM0_2 : Memref sig .tc .vmem S512x1 .f32 := Memref.whole cc0_scratch2
abbrev scM0_3 : Memref sig .tc .vmem S512x1 .f32 := Memref.whole cc0_scratch3
abbrev scM0_4 : Memref sig .tc .vmem S512x1 .f32 := Memref.whole cc0_scratch4
abbrev VS0_0 : View sig .tc .vmem S512x1 .f32 := scM0_0.view
abbrev VS0_1 : View sig .tc .vmem S512x1 .f32 := scM0_1.view
abbrev VS0_2 : View sig .tc .vmem S512x1 .f32 := scM0_2.view
abbrev VS0_3 : View sig .tc .vmem S512x1 .f32 := scM0_3.view
abbrev VS0_4 : View sig .tc .vmem S512x1 .f32 := scM0_4.view

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.Kernel.Hand

end
-- ==== Proof.K.RunA.lean ====
/-
  The body at a grid point whose column block is the first: on whole operands holding the input blocks it runs to its end, leaving
  the inputs as they were and the listed stores (last first) in the outputs' and the totals' buffers.
-/
import proofs.«431328_j9835475108099_1_alg».proof.Proof.K.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : cond0_0 i) (hc1 : ¬cond0_1 i)
    (x0 x1 : Vec F S512x256 .f32) (x2 : Vec F S512x1 .i32) (x3 : Vec F S1x512 .i32) :
    Σ' (L4 : List (View.Piece (Elt F) S512x1 .f32)) (L5 : List (View.Piece (Elt F) S512x1 .f32)) (LS0 : List (View.Piece (Elt F) S512x1 .f32)) (LS1 : List (View.Piece (Elt F) S512x1 .f32)) (LS2 : List (View.Piece (Elt F) S512x1 .f32)) (LS3 : List (View.Piece (Elt F) S512x1 .f32)), { LS4 : List (View.Piece (Elt F) S512x1 .f32) //
      ∀ (xi4 xi5 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3) ∗ (∃ f, arg12.view.loc (c : Thread nD τ) ↦[arg12.view.set]{fullShare} arg12.view.writes (Elt F) f LS4)) -∗ K ⟨⟩))
          ⊢ wp frame (wpE (defs₀ (F := F)) Variants.none c none) E (cc0__supcon_kernel i arg2 harg2 arg3 harg3 arg4 harg4 arg5 harg5 arg6 harg6 arg7 harg7 arg8 harg8 arg9 harg9 arg10 harg10 arg11 harg11 arg12 harg12) K } := by
  refine ⟨[], [], ?_, ?_, ?_, ?_, ?_, fun xi4 xi5 E K => ?run⟩
  case run =>
    simp only [cc0__supcon_kernel_eq_skeleton]; unfold cc0__supcon_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    isplitl [HS2]; · iexists _; iexact HS2
    isplitl [HS3]; · iexists _; iexact HS3
    iexists _; iexact HS4

end Cert.Kernel.Hand

end
-- ==== Proof.K.RunB.lean ====
/-
  The same where the column block is neither the first nor the last.
-/
import proofs.«431328_j9835475108099_1_alg».proof.Proof.K.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : ¬cond0_1 i)
    (x0 x1 : Vec F S512x256 .f32) (x2 : Vec F S512x1 .i32) (x3 : Vec F S1x512 .i32) (xs0 xs1 xs2 xs3 xs4 : Vec F S512x1 .f32) :
    Σ' (L4 : List (View.Piece (Elt F) S512x1 .f32)) (L5 : List (View.Piece (Elt F) S512x1 .f32)) (LS0 : List (View.Piece (Elt F) S512x1 .f32)) (LS1 : List (View.Piece (Elt F) S512x1 .f32)) (LS2 : List (View.Piece (Elt F) S512x1 .f32)) (LS3 : List (View.Piece (Elt F) S512x1 .f32)), { LS4 : List (View.Piece (Elt F) S512x1 .f32) //
      ∀ (xi4 xi5 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xs0 ∗ owns (c : Thread nD τ) arg9 fullShare xs1 ∗ owns (c : Thread nD τ) arg10 fullShare xs2 ∗ owns (c : Thread nD τ) arg11 fullShare xs3 ∗ owns (c : Thread nD τ) arg12 fullShare xs4
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3) ∗ (∃ f, arg12.view.loc (c : Thread nD τ) ↦[arg12.view.set]{fullShare} arg12.view.writes (Elt F) f LS4)) -∗ K ⟨⟩))
          ⊢ wp frame (wpE (defs₀ (F := F)) Variants.none c none) E (cc0__supcon_kernel i arg2 harg2 arg3 harg3 arg4 harg4 arg5 harg5 arg6 harg6 arg7 harg7 arg8 harg8 arg9 harg9 arg10 harg10 arg11 harg11 arg12 harg12) K } := by
  refine ⟨[], [], ?_, ?_, ?_, ?_, ?_, fun xi4 xi5 E K => ?run⟩
  case run =>
    simp only [cc0__supcon_kernel_eq_skeleton]; unfold cc0__supcon_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0; obtain rfl := harg9.eq_unread hfs1; obtain rfl := harg10.eq_unread hfs2; obtain rfl := harg11.eq_unread hfs3; obtain rfl := harg12.eq_unread hfs4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    isplitl [HS2]; · iexists _; iexact HS2
    isplitl [HS3]; · iexists _; iexact HS3
    iexists _; iexact HS4

end Cert.Kernel.Hand

end
-- ==== Proof.K.RunC.lean ====
/-
  The same where the column block is the last.
-/
import proofs.«431328_j9835475108099_1_alg».proof.Proof.K.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_C (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : cond0_1 i)
    (x0 x1 : Vec F S512x256 .f32) (x2 : Vec F S512x1 .i32) (x3 : Vec F S1x512 .i32) (xs0 xs1 xs2 xs3 xs4 : Vec F S512x1 .f32) :
    Σ' (L4 : List (View.Piece (Elt F) S512x1 .f32)) (L5 : List (View.Piece (Elt F) S512x1 .f32)) (LS0 : List (View.Piece (Elt F) S512x1 .f32)) (LS1 : List (View.Piece (Elt F) S512x1 .f32)) (LS2 : List (View.Piece (Elt F) S512x1 .f32)) (LS3 : List (View.Piece (Elt F) S512x1 .f32)), { LS4 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs0 ∗ owns (c : Thread nD τ) arg9 fullShare xs1 ∗ owns (c : Thread nD τ) arg10 fullShare xs2 ∗ owns (c : Thread nD τ) arg11 fullShare xs3 ∗ owns (c : Thread nD τ) arg12 fullShare xs4
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3) ∗ (∃ f, arg12.view.loc (c : Thread nD τ) ↦[arg12.view.set]{fullShare} arg12.view.writes (Elt F) f LS4)) -∗ K ⟨⟩))
          ⊢ wp frame (wpE (defs₀ (F := F)) Variants.none c none) E (cc0__supcon_kernel i arg2 harg2 arg3 harg3 arg4 harg4 arg5 harg5 arg6 harg6 arg7 harg7 arg8 harg8 arg9 harg9 arg10 harg10 arg11 harg11 arg12 harg12) K } := by
  refine ⟨?_, ?_, ?_, ?_, ?_, ?_, ?_, fun E K => ?run⟩
  case run =>
    simp only [cc0__supcon_kernel_eq_skeleton]; unfold cc0__supcon_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg2.eq_unread hf0; obtain rfl := harg3.eq_unread hf1; obtain rfl := harg4.eq_unread hf2; obtain rfl := harg5.eq_unread hf3; obtain rfl := harg8.eq_unread hfs0; obtain rfl := harg9.eq_unread hfs1; obtain rfl := harg10.eq_unread hfs2; obtain rfl := harg11.eq_unread hfs3; obtain rfl := harg12.eq_unread hfs4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [HS0]; · iexists _; iexact HS0
    isplitl [HS1]; · iexists _; iexact HS1
    isplitl [HS2]; · iexists _; iexact HS2
    isplitl [HS3]; · iexists _; iexact HS3
    iexists _; iexact HS4

end Cert.Kernel.Hand

end
-- ==== Proof.K.Frame.lean ====
/-
  The region's proof data. The body has three cases by the point's column block (first: the five running totals are reset, then
  updated; neither: updated; last: updated, and the two outputs written from them). In each case every buffer's stores cover it, so
  what it then holds is a function of the stores alone; point by point this names what the seven buffers hold, and the invariant
  carries the five totals from one point to the next.
-/
import proofs.«431328_j9835475108099_1_alg».proof.Proof.K.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's eleven operands, each a whole buffer: the four input blocks', the two outputs', the five running totals'. -/
structure Bufs where
  a2 : Memref sig .tc .vmem S512x256 .f32
  h2 : a2.IsWhole
  a3 : Memref sig .tc .vmem S512x256 .f32
  h3 : a3.IsWhole
  a4 : Memref sig .tc .vmem S512x1 .i32
  h4 : a4.IsWhole
  a5 : Memref sig .tc .vmem S1x512 .i32
  h5 : a5.IsWhole
  a6 : Memref sig .tc .vmem S512x1 .f32
  h6 : a6.IsWhole
  a7 : Memref sig .tc .vmem S512x1 .f32
  h7 : a7.IsWhole
  a8 : Memref sig .tc .vmem S512x1 .f32
  h8 : a8.IsWhole
  a9 : Memref sig .tc .vmem S512x1 .f32
  h9 : a9.IsWhole
  a10 : Memref sig .tc .vmem S512x1 .f32
  h10 : a10.IsWhole
  a11 : Memref sig .tc .vmem S512x1 .f32
  h11 : a11.IsWhole
  a12 : Memref sig .tc .vmem S512x1 .f32
  h12 : a12.IsWhole

/-- The operands the body is called with at grid point t. -/
abbrev bufsAt (t : Fin cfg0.N) : Bufs :=
  ⟨ms0_0 t, hs0_0 t, ms0_1 t, hs0_1 t, ms0_2 t, hs0_2 t, ms0_3 t, hs0_3 t, ms0_4 t, hs0_4 t, ms0_5 t, hs0_5 t,
    scM0_0, Memref.isWhole_whole _, scM0_1, Memref.isWhole_whole _, scM0_2, Memref.isWhole_whole _, scM0_3, Memref.isWhole_whole _, scM0_4, Memref.isWhole_whole _⟩

/-- Away from the last column block the body stores nothing into the two outputs: the contents named for them there are a
    placeholder that nothing reads. -/
def idle0_4 : Vec F S512x1 .f32 := VO0_4.read (Elt F) VO0_4.junk
def idle0_5 : Vec F S512x1 .f32 := VO0_5.read (Elt F) VO0_5.junk

section
variable (c : Dev nD) (i : grid0.Coords) (b : Bufs) (hc0 : cond0_0 i) (hc1 : ¬cond0_1 i) (x0 x1 : Vec F S512x256 .f32) (x2 : Vec F S512x1 .i32) (x3 : Vec F S1x512 .i32)

/-- The body's run where the column block is the first (the totals are reset, then updated). Each list of stores it leaves tiles its buffer, so it covers it. -/
def runA := kernelRun0_A c i b.a2 b.h2 b.a3 b.h3 b.a4 b.h4 b.a5 b.h5 b.a6 b.h6 b.a7 b.h7 b.a8 b.h8 b.a9 b.h9 b.a10 b.h10 b.a11 b.h11 b.a12 b.h12 hc0 hc1 x0 x1 x2 x3

theorem scover0_A_0 : ∀ y : S512x1.Idx, ∃ pc ∈ (runA c i b hc0 hc1 x0 x1 x2 x3).2.2.1, y ∈ pc.1.set := View.cover_of_tiledL _ S512x1.size (by sl_kernel_rfl)
theorem scover0_A_1 : ∀ y : S512x1.Idx, ∃ pc ∈ (runA c i b hc0 hc1 x0 x1 x2 x3).2.2.2.1, y ∈ pc.1.set := View.cover_of_tiledL _ S512x1.size (by sl_kernel_rfl)
theorem scover0_A_2 : ∀ y : S512x1.Idx, ∃ pc ∈ (runA c i b hc0 hc1 x0 x1 x2 x3).2.2.2.2.1, y ∈ pc.1.set := View.cover_of_tiledL _ S512x1.size (by sl_kernel_rfl)
theorem scover0_A_3 : ∀ y : S512x1.Idx, ∃ pc ∈ (runA c i b hc0 hc1 x0 x1 x2 x3).2.2.2.2.2.1, y ∈ pc.1.set := View.cover_of_tiledL _ S512x1.size (by sl_kernel_rfl)
theorem scover0_A_4 : ∀ y : S512x1.Idx, ∃ pc ∈ (runA c i b hc0 hc1 x0 x1 x2 x3).2.2.2.2.2.2.1, y ∈ pc.1.set := View.cover_of_tiledL _ S512x1.size (by sl_kernel_rfl)

/-- What the seven buffers then hold (output 4, output 5, the five totals): a covering list of stores leaves its canonical contents, whatever was there. -/
def outsA : Vec F S512x1 .f32 × Vec F S512x1 .f32 × Vec F S512x1 .f32 × Vec F S512x1 .f32 × Vec F S512x1 .f32 × Vec F S512x1 .f32 × Vec F S512x1 .f32 :=
  (idle0_4, idle0_5, View.canon (runA c i b hc0 hc1 x0 x1 x2 x3).2.2.1, View.canon (runA c i b hc0 hc1 x0 x1 x2 x3).2.2.2.1, View.canon (runA c i b hc0 hc1 x0 x1 x2 x3).2.2.2.2.1, View.canon (runA c i b hc0 hc1 x0 x1 x2 x3).2.2.2.2.2.1, View.canon (runA c i b hc0 hc1 x0 x1 x2 x3).2.2.2.2.2.2.1)

end

section
variable (c : Dev nD) (i : grid0.Coords) (b : Bufs) (hc0 : ¬cond0_0 i) (hc1 : ¬cond0_1 i) (x0 x1 : Vec F S512x256 .f32) (x2 : Vec F S512x1 .i32) (x3 : Vec F S1x512 .i32) (xs : Vec F S512x1 .f32 × Vec F S512x1 .f32 × Vec F S512x1 .f32 × Vec F S512x1 .f32 × Vec F S512x1 .f32)

/-- Where the column block is neither the first nor the last: the totals are updated over what they held, xs. -/
def runB := kernelRun0_B c i b.a2 b.h2 b.a3 b.h3 b.a4 b.h4 b.a5 b.h5 b.a6 b.h6 b.a7 b.h7 b.a8 b.h8 b.a9 b.h9 b.a10 b.h10 b.a11 b.h11 b.a12 b.h12 hc0 hc1 x0 x1 x2 x3 xs.1 xs.2.1 xs.2.2.1 xs.2.2.2.1 xs.2.2.2.2

theorem scover0_B_0 : ∀ y : S512x1.Idx, ∃ pc ∈ (runB c i b hc0 hc1 x0 x1 x2 x3 xs).2.2.1, y ∈ pc.1.set := View.cover_of_tiledL _ S512x1.size (by sl_kernel_rfl)
theorem scover0_B_1 : ∀ y : S512x1.Idx, ∃ pc ∈ (runB c i b hc0 hc1 x0 x1 x2 x3 xs).2.2.2.1, y ∈ pc.1.set := View.cover_of_tiledL _ S512x1.size (by sl_kernel_rfl)
theorem scover0_B_2 : ∀ y : S512x1.Idx, ∃ pc ∈ (runB c i b hc0 hc1 x0 x1 x2 x3 xs).2.2.2.2.1, y ∈ pc.1.set := View.cover_of_tiledL _ S512x1.size (by sl_kernel_rfl)
theorem scover0_B_3 : ∀ y : S512x1.Idx, ∃ pc ∈ (runB c i b hc0 hc1 x0 x1 x2 x3 xs).2.2.2.2.2.1, y ∈ pc.1.set := View.cover_of_tiledL _ S512x1.size (by sl_kernel_rfl)
theorem scover0_B_4 : ∀ y : S512x1.Idx, ∃ pc ∈ (runB c i b hc0 hc1 x0 x1 x2 x3 xs).2.2.2.2.2.2.1, y ∈ pc.1.set := View.cover_of_tiledL _ S512x1.size (by sl_kernel_rfl)

/-- What the seven buffers then hold. -/
def outsB : Vec F S512x1 .f32 × Vec F S512x1 .f32 × Vec F S512x1 .f32 × Vec F S512x1 .f32 × Vec F S512x1 .f32 × Vec F S512x1 .f32 × Vec F S512x1 .f32 :=
  (idle0_4, idle0_5, View.canon (runB c i b hc0 hc1 x0 x1 x2 x3 xs).2.2.1, View.canon (runB c i b hc0 hc1 x0 x1 x2 x3 xs).2.2.2.1, View.canon (runB c i b hc0 hc1 x0 x1 x2 x3 xs).2.2.2.2.1, View.canon (runB c i b hc0 hc1 x0 x1 x2 x3 xs).2.2.2.2.2.1, View.canon (runB c i b hc0 hc1 x0 x1 x2 x3 xs).2.2.2.2.2.2.1)

end

section
variable (c : Dev nD) (i : grid0.Coords) (b : Bufs) (hc0 : ¬cond0_0 i) (hc1 : cond0_1 i) (x0 x1 : Vec F S512x256 .f32) (x2 : Vec F S512x1 .i32) (x3 : Vec F S1x512 .i32) (xs : Vec F S512x1 .f32 × Vec F S512x1 .f32 × Vec F S512x1 .f32 × Vec F S512x1 .f32 × Vec F S512x1 .f32)

/-- Where the column block is the last: the totals are updated over xs and the two outputs written from them. -/
def runC := kernelRun0_C c i b.a2 b.h2 b.a3 b.h3 b.a4 b.h4 b.a5 b.h5 b.a6 b.h6 b.a7 b.h7 b.a8 b.h8 b.a9 b.h9 b.a10 b.h10 b.a11 b.h11 b.a12 b.h12 hc0 hc1 x0 x1 x2 x3 xs.1 xs.2.1 xs.2.2.1 xs.2.2.2.1 xs.2.2.2.2

theorem cover0_C_4 : ∀ y : S512x1.Idx, ∃ pc ∈ (runC c i b hc0 hc1 x0 x1 x2 x3 xs).1, y ∈ pc.1.set := View.cover_of_tiledL _ S512x1.size (by sl_kernel_rfl)
theorem cover0_C_5 : ∀ y : S512x1.Idx, ∃ pc ∈ (runC c i b hc0 hc1 x0 x1 x2 x3 xs).2.1, y ∈ pc.1.set := View.cover_of_tiledL _ S512x1.size (by sl_kernel_rfl)
theorem scover0_C_0 : ∀ y : S512x1.Idx, ∃ pc ∈ (runC c i b hc0 hc1 x0 x1 x2 x3 xs).2.2.1, y ∈ pc.1.set := View.cover_of_tiledL _ S512x1.size (by sl_kernel_rfl)
theorem scover0_C_1 : ∀ y : S512x1.Idx, ∃ pc ∈ (runC c i b hc0 hc1 x0 x1 x2 x3 xs).2.2.2.1, y ∈ pc.1.set := View.cover_of_tiledL _ S512x1.size (by sl_kernel_rfl)
theorem scover0_C_2 : ∀ y : S512x1.Idx, ∃ pc ∈ (runC c i b hc0 hc1 x0 x1 x2 x3 xs).2.2.2.2.1, y ∈ pc.1.set := View.cover_of_tiledL _ S512x1.size (by sl_kernel_rfl)
theorem scover0_C_3 : ∀ y : S512x1.Idx, ∃ pc ∈ (runC c i b hc0 hc1 x0 x1 x2 x3 xs).2.2.2.2.2.1, y ∈ pc.1.set := View.cover_of_tiledL _ S512x1.size (by sl_kernel_rfl)
theorem scover0_C_4 : ∀ y : S512x1.Idx, ∃ pc ∈ (runC c i b hc0 hc1 x0 x1 x2 x3 xs).2.2.2.2.2.2.1, y ∈ pc.1.set := View.cover_of_tiledL _ S512x1.size (by sl_kernel_rfl)

/-- What the seven buffers then hold. -/
def outsC : Vec F S512x1 .f32 × Vec F S512x1 .f32 × Vec F S512x1 .f32 × Vec F S512x1 .f32 × Vec F S512x1 .f32 × Vec F S512x1 .f32 × Vec F S512x1 .f32 :=
  (View.canon (runC c i b hc0 hc1 x0 x1 x2 x3 xs).1, View.canon (runC c i b hc0 hc1 x0 x1 x2 x3 xs).2.1, View.canon (runC c i b hc0 hc1 x0 x1 x2 x3 xs).2.2.1, View.canon (runC c i b hc0 hc1 x0 x1 x2 x3 xs).2.2.2.1, View.canon (runC c i b hc0 hc1 x0 x1 x2 x3 xs).2.2.2.2.1, View.canon (runC c i b hc0 hc1 x0 x1 x2 x3 xs).2.2.2.2.2.1, View.canon (runC c i b hc0 hc1 x0 x1 x2 x3 xs).2.2.2.2.2.2.1)

end

/-- The three cases at grid point t, on the point's operands and input blocks. -/
def atA (c : Dev nD) (t : Fin cfg0.N) (h0 : t.val % 8 = 0) : Vec F S512x1 .f32 × Vec F S512x1 .f32 × Vec F S512x1 .f32 × Vec F S512x1 .f32 × Vec F S512x1 .f32 × Vec F S512x1 .f32 × Vec F S512x1 .f32 :=
  outsA c (grid0.coords t) (bufsAt t) ((hcond0_0 t).mpr h0) (fun h => absurd ((hcond0_1 t).mp h) (by omega)) (iblk m c 0 t) (iblk m c 1 t) (iblk m c 2 t) (iblk m c 3 t)
def atB (c : Dev nD) (t : Fin cfg0.N) (h0 : ¬t.val % 8 = 0) (h1 : ¬t.val % 8 = 7) (xs : Vec F S512x1 .f32 × Vec F S512x1 .f32 × Vec F S512x1 .f32 × Vec F S512x1 .f32 × Vec F S512x1 .f32) : Vec F S512x1 .f32 × Vec F S512x1 .f32 × Vec F S512x1 .f32 × Vec F S512x1 .f32 × Vec F S512x1 .f32 × Vec F S512x1 .f32 × Vec F S512x1 .f32 :=
  outsB c (grid0.coords t) (bufsAt t) (fun h => h0 ((hcond0_0 t).mp h)) (fun h => h1 ((hcond0_1 t).mp h)) (iblk m c 0 t) (iblk m c 1 t) (iblk m c 2 t) (iblk m c 3 t) xs
def atC (c : Dev nD) (t : Fin cfg0.N) (h1 : t.val % 8 = 7) (xs : Vec F S512x1 .f32 × Vec F S512x1 .f32 × Vec F S512x1 .f32 × Vec F S512x1 .f32 × Vec F S512x1 .f32) : Vec F S512x1 .f32 × Vec F S512x1 .f32 × Vec F S512x1 .f32 × Vec F S512x1 .f32 × Vec F S512x1 .f32 × Vec F S512x1 .f32 × Vec F S512x1 .f32 :=
  outsC c (grid0.coords t) (bufsAt t) (fun h => absurd ((hcond0_0 t).mp h) (by omega)) ((hcond0_1 t).mpr h1) (iblk m c 0 t) (iblk m c 1 t) (iblk m c 2 t) (iblk m c 3 t) xs

/-- What the seven buffers hold after the body at position n: the case the column block selects, over what the five
    totals held after the point before. -/
def outsAt0 (c : Dev nD) : (n : ℕ) → n < cfg0.N → Vec F S512x1 .f32 × Vec F S512x1 .f32 × Vec F S512x1 .f32 × Vec F S512x1 .f32 × Vec F S512x1 .f32 × Vec F S512x1 .f32 × Vec F S512x1 .f32
  | 0, hn => atA m c ⟨0, hn⟩ (Nat.zero_mod _)
  | n + 1, hn =>
    if h0 : (n + 1) % 8 = 0 then atA m c ⟨n + 1, hn⟩ h0
    else if h1 : (n + 1) % 8 = 7 then atC m c ⟨n + 1, hn⟩ h1 (outsAt0 c n (Nat.lt_of_succ_lt hn)).2.2
    else atB m c ⟨n + 1, hn⟩ h0 h1 (outsAt0 c n (Nat.lt_of_succ_lt hn)).2.2

/-- The totals after the point before t. -/
abbrev prev0 (c : Dev nD) (t : Fin cfg0.N) : Vec F S512x1 .f32 × Vec F S512x1 .f32 × Vec F S512x1 .f32 × Vec F S512x1 .f32 × Vec F S512x1 .f32 := (outsAt0 m c (t.val - 1) (Nat.lt_of_le_of_lt (Nat.sub_le _ _) t.isLt)).2.2

theorem outsAt0_A (c : Dev nD) (t : Fin cfg0.N) (h0 : t.val % 8 = 0) : outsAt0 m c t.val t.isLt = atA m c t h0 := by
  obtain ⟨n, hn⟩ := t
  cases n with
  | zero => rfl
  | succ n => exact dif_pos h0

theorem outsAt0_B (c : Dev nD) (t : Fin cfg0.N) (h0 : ¬t.val % 8 = 0) (h1 : ¬t.val % 8 = 7) :
    outsAt0 m c t.val t.isLt = atB m c t h0 h1 (prev0 m c t) := by
  obtain ⟨n, hn⟩ := t
  cases n with
  | zero => exact absurd (Nat.zero_mod _) h0
  | succ n => exact (dif_neg h0).trans (dif_neg h1)

theorem outsAt0_C (c : Dev nD) (t : Fin cfg0.N) (h1 : t.val % 8 = 7) : outsAt0 m c t.val t.isLt = atC m c t h1 (prev0 m c t) := by
  obtain ⟨n, hn⟩ := t
  cases n with
  | zero => exact absurd h1 (by dsimp only; omega)
  | succ n => exact (dif_neg (by dsimp only at h1 ⊢; omega)).trans (dif_pos h1)

/-- The five totals' buffers owned at the contents xs. -/
def totals (c : Dev nD) (xs : Vec F S512x1 .f32 × Vec F S512x1 .f32 × Vec F S512x1 .f32 × Vec F S512x1 .f32 × Vec F S512x1 .f32) : sProp 𝕄 :=
  iprop(iprop(owns (c : Thread nD τ) scM0_0 fullShare xs.1 ∗ owns (c : Thread nD τ) scM0_1 fullShare xs.2.1 ∗ owns (c : Thread nD τ) scM0_2 fullShare xs.2.2.1 ∗ owns (c : Thread nD τ) scM0_3 fullShare xs.2.2.2.1 ∗ owns (c : Thread nD τ) scM0_4 fullShare xs.2.2.2.2) ∗ (∃ r, prngReg c r))

/-- The region's invariant before position n: what the launch hands over before the first point, afterwards the totals
    at what the point before left. -/
def PhiS (c : Dev nD) : (n : ℕ) → n ≤ cfg0.N → sProp 𝕄
  | 0, _ => Pipeline.ΦA spec0 c
  | n + 1, hn => totals c (outsAt0 m c n hn).2.2

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) : PhiS m c (n + 1) hn = totals c (outsAt0 m c n hn).2.2 := rfl

theorem PhiS_pos (c : Dev nD) (n : ℕ) (h : n ≤ cfg0.N) (hz : n ≠ 0) :
    PhiS m c n h = totals c (outsAt0 m c (n - 1) (by omega)).2.2 := by
  cases n with
  | zero => exact absurd rfl hz
  | succ n => rfl

/-- The region's proof data: after the body at point t each input holds its block and the two outputs the point's contents;
    the invariant is PhiS; the row and the column window read one array, so each holds half of it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
    | ⟨5, _⟩ => (outsAt0 m c t.val t.isLt).2.1
  Φ t := PhiS m c t.val (Nat.le_of_lt_succ t.isLt)
  q := fun w => match w with
    | ⟨0, _⟩ => fullShare.left
    | ⟨1, _⟩ => fullShare.right
    | _ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]
theorem after0_5 (c : Dev nD) (t : Fin cfg0.N) : (dats m 0 c).after 5 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the launch's back: the totals' named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  unfold totals
  iintro ⟨⟨HS0, HS1, HS2, HS3, HS4⟩, Hg⟩
  isplitr [Hg]
  · isplitl [HS0]; · iexists _; iexact HS0
    isplitl [HS1]; · iexists _; iexact HS1
    isplitl [HS2]; · iexists _; iexact HS2
    isplitl [HS3]; · iexists _; iexact HS3
    iexists _; iexact HS4
  iexact Hg

theorem hout (c : Dev nD) : (dats m 0 c).Φ (Fin.last cfg0.N) ⊢ Pipeline.ΦA spec0 c :=
  Phi_out m c _ (by rw [Fin.val_last]; have : cfg0.N = 64 := N_0; omega)

/-- The body obligation's two sides at point t. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

end Cert.Kernel.Hand

end
-- ==== Proof.K.FrameBody.lean ====
/-
  The body obligation: at every point the case's run applies, taking the totals from the invariant and giving them back at the
  point's contents.
-/
import proofs.«431328_j9835475108099_1_alg».proof.Proof.K.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Before any point the invariant gives at least what the launch hands over: the five totals' buffers at something. -/
theorem Phi_some (c : Dev nD) (t : Fin cfg0.N) : PhiS m c t.val (Nat.le_of_lt t.isLt) ⊢ (Pipeline.ΦA spec0 c : sProp 𝕄) := by
  by_cases hz : t.val = 0
  · rw [PhiS_zero m c _ _ hz]
  · exact (PhiS_castSucc m c t) ▸ Phi_out m c t.castSucc (by rw [Fin.coe_castSucc]; exact hz)

/-- The body where the column block is the first: the totals' buffers are handed over at anything, the outputs untouched. -/
theorem sound_body_A (c : Dev nD) (t : Fin cfg0.N) (h0 : t.val % 8 = 0) : bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    show (dats m 0 c).Φ t.succ = PhiS m c (t.val + 1) t.isLt from rfl, PhiS_succ, PhiS_castSucc m c t,
    show (dats m 0 c).leavesExact 0 t = owns (c : Thread nD τ) (ms0_0 t) fullShare ((dats m 0 c).after 0 t) from by
      unfold Dat.leavesExact; rw [liveAt0_0 t], after0_0,
    show (dats m 0 c).leavesExact 1 t = owns (c : Thread nD τ) (ms0_1 t) fullShare ((dats m 0 c).after 1 t) from by
      unfold Dat.leavesExact; rw [liveAt0_1 t], after0_1,
    show (dats m 0 c).leavesExact 2 t = owns (c : Thread nD τ) (ms0_2 t) fullShare ((dats m 0 c).after 2 t) from by
      unfold Dat.leavesExact; rw [liveAt0_2 t], after0_2,
    show (dats m 0 c).leavesExact 3 t = owns (c : Thread nD τ) (ms0_3 t) fullShare ((dats m 0 c).after 3 t) from by
      unfold Dat.leavesExact; rw [liveAt0_3 t], after0_3]
  have hN : t.val < 64 := lt_of_lt_of_eq t.isLt (show cfg0.N = 64 from N_0)
  have hc1 : ¬cond0_1 (grid0.coords t) := fun h => absurd ((hcond0_1 t).mp h) (by omega)
  rw [Dat.leavesExact_idle (dats m 0 c) 4 t (idleAt0_4 t hc1) (noFlush0_4 t hc1),
    Dat.leavesExact_idle (dats m 0 c) 5 t (idleAt0_5 t hc1) (noFlush0_5 t hc1)]
  rw [outsAt0_A m c t h0]
  unfold totals atA outsA; dsimp only
  have hΦ := Phi_some m c t
  rw [PhiA0_eq] at hΦ
  iintro ⟨HΦ, Ho, ⟨%d0, H0⟩, ⟨%d1, H1⟩, ⟨%d2, H2⟩, ⟨%d3, H3⟩, ⟨%d4, H4⟩, ⟨%d5, H5⟩⟩
  ihave HΦ := hΦ $$ HΦ
  icases HΦ with ⟨⟨HS0, HS1, HS2, HS3, HS4⟩, Hg⟩
  have key := (runA c (grid0.coords t) (bufsAt t) ((hcond0_0 t).mpr h0) (fun h => absurd ((hcond0_1 t).mp h) (by omega)) (iblk m c 0 t) (iblk m c 1 t) (iblk m c 2 t) (iblk m c 3 t)).2.2.2.2.2.2.2
  iapply (key _ _ Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  isplitl [HS3]; · iexact HS3
  isplitl [HS4]; · iexact HS4
  iintro ⟨H0, H1, H2, H3, H4, H5, ⟨%es0, HS0⟩, ⟨%es1, HS1⟩, ⟨%es2, HS2⟩, ⟨%es3, HS3⟩, ⟨%es4, HS4⟩⟩
  isplitl [HS0 HS1 HS2 HS3 HS4 Hg]
  · isplitr [Hg]
    · isplitl [HS0]
      · unfold owns; iexists _; isplitr
        swap; · iexact HS0
        ipureintro; exact View.read_writes_eq_canon _ _ _ (scover0_A_0 c (grid0.coords t) (bufsAt t) _ _ _ _ _ _)
      isplitl [HS1]
      · unfold owns; iexists _; isplitr
        swap; · iexact HS1
        ipureintro; exact View.read_writes_eq_canon _ _ _ (scover0_A_1 c (grid0.coords t) (bufsAt t) _ _ _ _ _ _)
      isplitl [HS2]
      · unfold owns; iexists _; isplitr
        swap; · iexact HS2
        ipureintro; exact View.read_writes_eq_canon _ _ _ (scover0_A_2 c (grid0.coords t) (bufsAt t) _ _ _ _ _ _)
      isplitl [HS3]
      · unfold owns; iexists _; isplitr
        swap; · iexact HS3
        ipureintro; exact View.read_writes_eq_canon _ _ _ (scover0_A_3 c (grid0.coords t) (bufsAt t) _ _ _ _ _ _)
      unfold owns; iexists _; isplitr
      swap; · iexact HS4
      ipureintro; exact View.read_writes_eq_canon _ _ _ (scover0_A_4 c (grid0.coords t) (bufsAt t) _ _ _ _ _ _)
    iexact Hg
  isplitl [Ho]; · iexact Ho
  isplitl [H0]; · iexact H0
  isplitl [H1]; · iexact H1
  isplitl [H2]; · iexact H2
  isplitl [H3]; · iexact H3
  isplitl [H4]; · iexists _; iexact H4
  iexists _; iexact H5

/-- Where it is neither the first nor the last: the totals are taken at what the point before left. -/
theorem sound_body_B (c : Dev nD) (t : Fin cfg0.N) (h0 : ¬t.val % 8 = 0) (h1 : ¬t.val % 8 = 7) : bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    show (dats m 0 c).Φ t.succ = PhiS m c (t.val + 1) t.isLt from rfl, PhiS_succ, PhiS_castSucc m c t,
    show (dats m 0 c).leavesExact 0 t = owns (c : Thread nD τ) (ms0_0 t) fullShare ((dats m 0 c).after 0 t) from by
      unfold Dat.leavesExact; rw [liveAt0_0 t], after0_0,
    show (dats m 0 c).leavesExact 1 t = owns (c : Thread nD τ) (ms0_1 t) fullShare ((dats m 0 c).after 1 t) from by
      unfold Dat.leavesExact; rw [liveAt0_1 t], after0_1,
    show (dats m 0 c).leavesExact 2 t = owns (c : Thread nD τ) (ms0_2 t) fullShare ((dats m 0 c).after 2 t) from by
      unfold Dat.leavesExact; rw [liveAt0_2 t], after0_2,
    show (dats m 0 c).leavesExact 3 t = owns (c : Thread nD τ) (ms0_3 t) fullShare ((dats m 0 c).after 3 t) from by
      unfold Dat.leavesExact; rw [liveAt0_3 t], after0_3]
  have hN : t.val < 64 := lt_of_lt_of_eq t.isLt (show cfg0.N = 64 from N_0)
  have hc1 : ¬cond0_1 (grid0.coords t) := fun h => h1 ((hcond0_1 t).mp h)
  rw [Dat.leavesExact_idle (dats m 0 c) 4 t (idleAt0_4 t hc1) (noFlush0_4 t hc1),
    Dat.leavesExact_idle (dats m 0 c) 5 t (idleAt0_5 t hc1) (noFlush0_5 t hc1)]
  rw [outsAt0_B m c t h0 h1, PhiS_pos m c _ _ (fun hz => h0 (by rw [hz]))]
  unfold totals atB outsB; dsimp only
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩⟩
  have key := (runB c (grid0.coords t) (bufsAt t) (fun h => h0 ((hcond0_0 t).mp h)) (fun h => h1 ((hcond0_1 t).mp h)) (iblk m c 0 t) (iblk m c 1 t) (iblk m c 2 t) (iblk m c 3 t) (prev0 m c t)).2.2.2.2.2.2.2
  iapply (key _ _ Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  isplitl [HS3]; · iexact HS3
  isplitl [HS4]; · iexact HS4
  iintro ⟨H0, H1, H2, H3, H4, H5, ⟨%es0, HS0⟩, ⟨%es1, HS1⟩, ⟨%es2, HS2⟩, ⟨%es3, HS3⟩, ⟨%es4, HS4⟩⟩
  isplitl [HS0 HS1 HS2 HS3 HS4 Hg]
  · isplitr [Hg]
    · isplitl [HS0]
      · unfold owns; iexists _; isplitr
        swap; · iexact HS0
        ipureintro; exact View.read_writes_eq_canon _ _ _ (scover0_B_0 c (grid0.coords t) (bufsAt t) _ _ _ _ _ _ _)
      isplitl [HS1]
      · unfold owns; iexists _; isplitr
        swap; · iexact HS1
        ipureintro; exact View.read_writes_eq_canon _ _ _ (scover0_B_1 c (grid0.coords t) (bufsAt t) _ _ _ _ _ _ _)
      isplitl [HS2]
      · unfold owns; iexists _; isplitr
        swap; · iexact HS2
        ipureintro; exact View.read_writes_eq_canon _ _ _ (scover0_B_2 c (grid0.coords t) (bufsAt t) _ _ _ _ _ _ _)
      isplitl [HS3]
      · unfold owns; iexists _; isplitr
        swap; · iexact HS3
        ipureintro; exact View.read_writes_eq_canon _ _ _ (scover0_B_3 c (grid0.coords t) (bufsAt t) _ _ _ _ _ _ _)
      unfold owns; iexists _; isplitr
      swap; · iexact HS4
      ipureintro; exact View.read_writes_eq_canon _ _ _ (scover0_B_4 c (grid0.coords t) (bufsAt t) _ _ _ _ _ _ _)
    iexact Hg
  isplitl [Ho]; · iexact Ho
  isplitl [H0]; · iexact H0
  isplitl [H1]; · iexact H1
  isplitl [H2]; · iexact H2
  isplitl [H3]; · iexact H3
  isplitl [H4]; · iexists _; iexact H4
  iexists _; iexact H5

/-- Where it is the last: the two outputs are written too. -/
theorem sound_body_C (c : Dev nD) (t : Fin cfg0.N) (h1 : t.val % 8 = 7) : bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    show (dats m 0 c).Φ t.succ = PhiS m c (t.val + 1) t.isLt from rfl, PhiS_succ, PhiS_castSucc m c t,
    show (dats m 0 c).leavesExact 0 t = owns (c : Thread nD τ) (ms0_0 t) fullShare ((dats m 0 c).after 0 t) from by
      unfold Dat.leavesExact; rw [liveAt0_0 t], after0_0,
    show (dats m 0 c).leavesExact 1 t = owns (c : Thread nD τ) (ms0_1 t) fullShare ((dats m 0 c).after 1 t) from by
      unfold Dat.leavesExact; rw [liveAt0_1 t], after0_1,
    show (dats m 0 c).leavesExact 2 t = owns (c : Thread nD τ) (ms0_2 t) fullShare ((dats m 0 c).after 2 t) from by
      unfold Dat.leavesExact; rw [liveAt0_2 t], after0_2,
    show (dats m 0 c).leavesExact 3 t = owns (c : Thread nD τ) (ms0_3 t) fullShare ((dats m 0 c).after 3 t) from by
      unfold Dat.leavesExact; rw [liveAt0_3 t], after0_3]
  have hN : t.val < 64 := lt_of_lt_of_eq t.isLt (show cfg0.N = 64 from N_0)
  have hc1 : cond0_1 (grid0.coords t) := (hcond0_1 t).mpr h1
  rw [show (dats m 0 c).leavesExact 4 t = owns (c : Thread nD τ) (ms0_4 t) fullShare ((dats m 0 c).after 4 t) from by
      unfold Dat.leavesExact; rw [liveAt0_4 t hc1], after0_4,
    show (dats m 0 c).leavesExact 5 t = owns (c : Thread nD τ) (ms0_5 t) fullShare ((dats m 0 c).after 5 t) from by
      unfold Dat.leavesExact; rw [liveAt0_5 t hc1], after0_5,
    outsAt0_C m c t h1, PhiS_pos m c _ _ (by omega)]
  unfold totals atC outsC; dsimp only
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩⟩
  have key := (runC c (grid0.coords t) (bufsAt t) (fun h => absurd ((hcond0_0 t).mp h) (by omega)) ((hcond0_1 t).mpr h1) (iblk m c 0 t) (iblk m c 1 t) (iblk m c 2 t) (iblk m c 3 t) (prev0 m c t)).2.2.2.2.2.2.2
  iapply (key Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [HS0]; · iexact HS0
  isplitl [HS1]; · iexact HS1
  isplitl [HS2]; · iexact HS2
  isplitl [HS3]; · iexact HS3
  isplitl [HS4]; · iexact HS4
  iintro ⟨H0, H1, H2, H3, ⟨%e4, H4⟩, ⟨%e5, H5⟩, ⟨%es0, HS0⟩, ⟨%es1, HS1⟩, ⟨%es2, HS2⟩, ⟨%es3, HS3⟩, ⟨%es4, HS4⟩⟩
  isplitl [HS0 HS1 HS2 HS3 HS4 Hg]
  · isplitr [Hg]
    · isplitl [HS0]
      · unfold owns; iexists _; isplitr
        swap; · iexact HS0
        ipureintro; exact View.read_writes_eq_canon _ _ _ (scover0_C_0 c (grid0.coords t) (bufsAt t) _ _ _ _ _ _ _)
      isplitl [HS1]
      · unfold owns; iexists _; isplitr
        swap; · iexact HS1
        ipureintro; exact View.read_writes_eq_canon _ _ _ (scover0_C_1 c (grid0.coords t) (bufsAt t) _ _ _ _ _ _ _)
      isplitl [HS2]
      · unfold owns; iexists _; isplitr
        swap; · iexact HS2
        ipureintro; exact View.read_writes_eq_canon _ _ _ (scover0_C_2 c (grid0.coords t) (bufsAt t) _ _ _ _ _ _ _)
      isplitl [HS3]
      · unfold owns; iexists _; isplitr
        swap; · iexact HS3
        ipureintro; exact View.read_writes_eq_canon _ _ _ (scover0_C_3 c (grid0.coords t) (bufsAt t) _ _ _ _ _ _ _)
      unfold owns; iexists _; isplitr
      swap; · iexact HS4
      ipureintro; exact View.read_writes_eq_canon _ _ _ (scover0_C_4 c (grid0.coords t) (bufsAt t) _ _ _ _ _ _ _)
    iexact Hg
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_eq_canon _ _ _ (cover0_C_4 c (grid0.coords t) (bufsAt t) _ _ _ _ _ _ _)
  unfold owns; iexists _; isplitr
  swap; · iexact H5
  ipureintro; exact View.read_writes_eq_canon _ _ _ (cover0_C_5 c (grid0.coords t) (bufsAt t) _ _ _ _ _ _ _)

/-- The library's body obligation at every point: the column block selects the case. -/
theorem body_obligation (c : Dev nD) : BodyObligation (dats (F := F) m 0 c) (defs₀ (F := F)) Variants.none () Set.univ := fun t => by
  rw [bigSep_W0, bigSep_W0]
  by_cases h1 : t.val % 8 = 7
  · exact sound_body_C m c t h1
  · by_cases h0 : t.val % 8 = 0
    · exact sound_body_A m c t h0
    · exact sound_body_B m c t h0 h1

end Cert.Kernel.Hand

end
-- ==== Proof.K.Launch.lean ====
/-
  @main's run: the operations before the region, the region, and the operations after it; the row and the column window read one
  array, so each holds half of it.
-/
import proofs.«431328_j9835475108099_1_alg».proof.Proof.K.Kit
import Idealize.ShloMosaic.Lib.Pipeline.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def exitVal (c : Dev nD) (o0 : Buf (Elt F) ((c : Thread nD τ).loc main_v7_0)) (o1 : Buf (Elt F) ((c : Thread nD τ).loc main_v7_1)) :
    Valuation τ sig (Elt F) :=
  Function.update (Function.update (V0 m c) (Proc.devRef .tc main_v7_0) o0) (Proc.devRef .tc main_v7_1) o1

theorem exitVal_v7_0 (c : Dev nD) (o0 : Buf (Elt F) ((c : Thread nD τ).loc main_v7_0)) (o1 : Buf (Elt F) ((c : Thread nD τ).loc main_v7_1)) :
    exitVal m c o0 o1 (Proc.devRef .tc main_v7_0) = o0 := by
  unfold exitVal
  rw [Function.update_of_ne (StableHlo.devRef_ne_of_ne (by decide)), Function.update_self]
theorem exitVal_v7_1 (c : Dev nD) (o0 : Buf (Elt F) ((c : Thread nD τ).loc main_v7_0)) (o1 : Buf (Elt F) ((c : Thread nD τ).loc main_v7_1)) :
    exitVal m c o0 o1 (Proc.devRef .tc main_v7_1) = o1 := by
  unfold exitVal
  rw [Function.update_self]

theorem exitVal_of_ne (c : Dev nD) (o0 : Buf (Elt F) ((c : Thread nD τ).loc main_v7_0)) (o1 : Buf (Elt F) ((c : Thread nD τ).loc main_v7_1))
    (b : Ref sig .tc) (h0 : b ≠ main_v7_0) (h1 : b ≠ main_v7_1) :
    exitVal m c o0 o1 (Proc.devRef .tc b) = V m c b := by
  unfold exitVal
  rw [Function.update_of_ne (StableHlo.devRef_ne_of_ne h1), Function.update_of_ne (StableHlo.devRef_ne_of_ne h0)]

def tailVal (c : Dev nD) (o0 : Buf (Elt F) ((c : Thread nD τ).loc main_v7_0)) (o1 : Buf (Elt F) ((c : Thread nD τ).loc main_v7_1)) :
    Buf (Elt F) ((c : Thread nD τ).loc main_v13) :=
  StableHlo.after hostOps1 (exitVal m c o0 o1) (Proc.devRef .tc main_v13)

theorem tailVal_eq (c : Dev nD) (o0 : Buf (Elt F) ((c : Thread nD τ).loc main_v7_0)) (o1 : Buf (Elt F) ((c : Thread nD τ).loc main_v7_1)) :
    tailVal m c o0 o1
      = addf (mulf (constant (F := F) S_ .f32 0xBF800000#32)
            (Host.divf (Host.reduceAdd o0 (constant (F := F) S_ .f32 0x00000000#32) reducesTo_S4096x1_S_d0_1 h_S_) (constant (F := F) S_ .f32 0x45800000#32)))
          (mulf (constant (F := F) S_ .f32 0xBBA3D70A#32) (Host.reduceAdd o1 (constant (F := F) S_ .f32 0x00000000#32) reducesTo_S4096x1_S_d0_1 h_S_)) := by
  unfold tailVal hostOps1
  after_results
  rw [exitVal_v7_0, exitVal_v7_1]

theorem share_w0 {c : Dev nD} (dat : Dat τ (Elt F) Unit ℕ (UR sig nD τ) ℕ cfg0 c) : dat.share 0 = dat.q 0 := by unfold Dat.share; rfl
theorem share_w1 {c : Dev nD} (dat : Dat τ (Elt F) Unit ℕ (UR sig nD τ) ℕ cfg0 c) : dat.share 1 = dat.q 1 := by unfold Dat.share; rfl
theorem share_w2 {c : Dev nD} (dat : Dat τ (Elt F) Unit ℕ (UR sig nD τ) ℕ cfg0 c) : dat.share 2 = dat.q 2 := by unfold Dat.share; rfl
theorem share_w3 {c : Dev nD} (dat : Dat τ (Elt F) Unit ℕ (UR sig nD τ) ℕ cfg0 c) : dat.share 3 = dat.q 3 := by unfold Dat.share; rfl
theorem share_w4 {c : Dev nD} (dat : Dat τ (Elt F) Unit ℕ (UR sig nD τ) ℕ cfg0 c) : dat.share 4 = fullShare := by unfold Dat.share; rfl
theorem share_w5 {c : Dev nD} (dat : Dat τ (Elt F) Unit ℕ (UR sig nD τ) ℕ cfg0 c) : dat.share 5 = fullShare := by unfold Dat.share; rfl

theorem arrays_eq6 {c : Dev nD} (dat : Dat τ (Elt F) Unit ℕ (UR sig nD τ) ℕ cfg0 c)
    (hq0 : dat.q 0 = fullShare.left) (hq1 : dat.q 1 = fullShare.right) (hq2 : dat.q 2 = fullShare) (hq3 : dat.q 3 = fullShare)
    (G : (w : Fin cfg0.W) → Buf (Elt F) ((cfg0.win w).arr.view.loc (c.tc : Thread nD τ))) :
    (dat.arrays G : sProp 𝕄)
      = iprop((((c.tc : Thread nD τ).loc main_v1) ↦{fullShare.left} G 0) ∗ (((c.tc : Thread nD τ).loc main_v1) ↦{fullShare.right} G 1)
          ∗ (((c.tc : Thread nD τ).loc main_v5) ↦{fullShare} G 2) ∗ (((c.tc : Thread nD τ).loc main_v6) ↦{fullShare} G 3)
          ∗ (((c.tc : Thread nD τ).loc main_v7_0) ↦{fullShare} G 4) ∗ (((c.tc : Thread nD τ).loc main_v7_1) ↦{fullShare} G 5)) := by
  unfold Dat.arrays
  rw [bigSep_W0, share_w0, share_w1, share_w2, share_w3, share_w4, share_w5, hq0, hq1, hq2, hq3]
  simp only [View.set_whole]

theorem arrBufs_eq5 (c : Dev nD) (W : (b : Ref sig .tc) → Buf (Elt F) ((c.tc : Thread nD τ).loc b)) :
    (Pipeline.arrBufs spec0 c W : sProp 𝕄)
      = iprop((((c.tc : Thread nD τ).loc main_v1) ↦{fullShare} W main_v1) ∗ (((c.tc : Thread nD τ).loc main_v5) ↦{fullShare} W main_v5)
          ∗ (((c.tc : Thread nD τ).loc main_v6) ↦{fullShare} W main_v6) ∗ (((c.tc : Thread nD τ).loc main_v7_0) ↦{fullShare} W main_v7_0)
          ∗ (((c.tc : Thread nD τ).loc main_v7_1) ↦{fullShare} W main_v7_1)) := by
  unfold Pipeline.arrBufs
  exact bigSep_eq_bigSepL_of_eq [main_v1, main_v5, main_v6, main_v7_0, main_v7_1] (by decide) (by decide) _

theorem hsplit_main {c : Dev nD} (dat : Dat τ (Elt F) Unit ℕ (UR sig nD τ) ℕ cfg0 c)
    (hA : ∀ w, dat.A w = V m c (Pipeline.arrRef spec0 w))
    (hq0 : dat.q 0 = fullShare.left) (hq1 : dat.q 1 = fullShare.right) (hq2 : dat.q 2 = fullShare) (hq3 : dat.q 3 = fullShare) :
    (Pipeline.arrBufs spec0 c (V m c) : sProp 𝕄) ⊢ dat.arrays (dat.arrAt · 0) := by
  rw [arrays_eq6 dat hq0 hq1 hq2 hq3, arrBufs_eq5]
  rw [show dat.arrAt 0 0 = V m c main_v1 from hA 0, show dat.arrAt 1 0 = V m c main_v1 from hA 1,
    show dat.arrAt 2 0 = V m c main_v5 from hA 2, show dat.arrAt 3 0 = V m c main_v6 from hA 3,
    show dat.arrAt 4 0 = V m c main_v7_0 from hA 4, show dat.arrAt 5 0 = V m c main_v7_1 from hA 5]
  iintro ⟨H1, H5, H6, H70, H71⟩
  ihave H1 := (pointsTo_share (PosShare.mem_left_op_right fullShare)).1 $$ H1
  icases H1 with ⟨H1l, H1r⟩
  isplitl [H1l]; · iexact H1l
  isplitl [H1r]; · iexact H1r
  isplitl [H5]; · iexact H5
  isplitl [H6]; · iexact H6
  isplitl [H70]; · iexact H70
  iexact H71

abbrev tailRefs19 : List (Ref sig .tc) := [main_v7_0, main_v7_1, main_arg0, main_arg1, main_v0, main_v2, main_v3, main_v4, main_cst, main_v8, main_cst_0, main_v9, main_cst_1, main_v10, main_cst_2, main_v11, main_cst_3, main_v12, main_v13]
def tailS : Finset (DevRef τ sig) := tailRefs19.toFinset.map ⟨Proc.devRef (sig := sig) .tc, Proc.devRef_injective _⟩

theorem mem_tailS {r : Ref sig .tc} (h : r ∈ tailRefs19) : Proc.devRef (τ := τ) .tc r ∈ tailS :=
  Finset.mem_map.mpr ⟨r, List.mem_toFinset.mpr h, rfl⟩

theorem hostOps1_subS : (hostOps1 : List (HloOp τ sig (Elt F))).Forall fun op => op.bufs ⊆ tailS :=
  ⟨Finset.singleton_subset_iff.mpr (mem_tailS (by decide)),
   Finset.insert_subset_iff.mpr ⟨mem_tailS (by decide), Finset.insert_subset_iff.mpr ⟨mem_tailS (by decide), Finset.singleton_subset_iff.mpr (mem_tailS (by decide))⟩⟩,
   Finset.singleton_subset_iff.mpr (mem_tailS (by decide)),
   Finset.insert_subset_iff.mpr ⟨mem_tailS (by decide), Finset.insert_subset_iff.mpr ⟨mem_tailS (by decide), Finset.singleton_subset_iff.mpr (mem_tailS (by decide))⟩⟩,
   Finset.singleton_subset_iff.mpr (mem_tailS (by decide)),
   Finset.insert_subset_iff.mpr ⟨mem_tailS (by decide), Finset.insert_subset_iff.mpr ⟨mem_tailS (by decide), Finset.singleton_subset_iff.mpr (mem_tailS (by decide))⟩⟩,
   Finset.singleton_subset_iff.mpr (mem_tailS (by decide)),
   Finset.insert_subset_iff.mpr ⟨mem_tailS (by decide), Finset.insert_subset_iff.mpr ⟨mem_tailS (by decide), Finset.singleton_subset_iff.mpr (mem_tailS (by decide))⟩⟩,
   Finset.singleton_subset_iff.mpr (mem_tailS (by decide)),
   Finset.insert_subset_iff.mpr ⟨mem_tailS (by decide), Finset.insert_subset_iff.mpr ⟨mem_tailS (by decide), Finset.singleton_subset_iff.mpr (mem_tailS (by decide))⟩⟩,
   Finset.insert_subset_iff.mpr ⟨mem_tailS (by decide), Finset.insert_subset_iff.mpr ⟨mem_tailS (by decide), Finset.singleton_subset_iff.mpr (mem_tailS (by decide))⟩⟩⟩

theorem held_tailS (c : Dev nD) (Wv : Valuation τ sig (Elt F)) :
    (StableHlo.held (c.tc : Thread nD τ) tailS Wv : sProp 𝕄)
      = iprop((((c.tc : Thread nD τ).loc main_v7_0) ↦{fullShare} Wv (Proc.devRef .tc main_v7_0)) ∗ (((c.tc : Thread nD τ).loc main_v7_1) ↦{fullShare} Wv (Proc.devRef .tc main_v7_1)) ∗ (((c.tc : Thread nD τ).loc main_arg0) ↦{fullShare} Wv (Proc.devRef .tc main_arg0)) ∗ (((c.tc : Thread nD τ).loc main_arg1) ↦{fullShare} Wv (Proc.devRef .tc main_arg1)) ∗ (((c.tc : Thread nD τ).loc main_v0) ↦{fullShare} Wv (Proc.devRef .tc main_v0)) ∗ (((c.tc : Thread nD τ).loc main_v2) ↦{fullShare} Wv (Proc.devRef .tc main_v2)) ∗ (((c.tc : Thread nD τ).loc main_v3) ↦{fullShare} Wv (Proc.devRef .tc main_v3)) ∗ (((c.tc : Thread nD τ).loc main_v4) ↦{fullShare} Wv (Proc.devRef .tc main_v4)) ∗ (((c.tc : Thread nD τ).loc main_cst) ↦{fullShare} Wv (Proc.devRef .tc main_cst)) ∗ (((c.tc : Thread nD τ).loc main_v8) ↦{fullShare} Wv (Proc.devRef .tc main_v8)) ∗ (((c.tc : Thread nD τ).loc main_cst_0) ↦{fullShare} Wv (Proc.devRef .tc main_cst_0)) ∗ (((c.tc : Thread nD τ).loc main_v9) ↦{fullShare} Wv (Proc.devRef .tc main_v9)) ∗ (((c.tc : Thread nD τ).loc main_cst_1) ↦{fullShare} Wv (Proc.devRef .tc main_cst_1)) ∗ (((c.tc : Thread nD τ).loc main_v10) ↦{fullShare} Wv (Proc.devRef .tc main_v10)) ∗ (((c.tc : Thread nD τ).loc main_cst_2) ↦{fullShare} Wv (Proc.devRef .tc main_cst_2)) ∗ (((c.tc : Thread nD τ).loc main_v11) ↦{fullShare} Wv (Proc.devRef .tc main_v11)) ∗ (((c.tc : Thread nD τ).loc main_cst_3) ↦{fullShare} Wv (Proc.devRef .tc main_cst_3)) ∗ (((c.tc : Thread nD τ).loc main_v12) ↦{fullShare} Wv (Proc.devRef .tc main_v12)) ∗ (((c.tc : Thread nD τ).loc main_v13) ↦{fullShare} Wv (Proc.devRef .tc main_v13))) := by
  unfold StableHlo.held tailS
  rw [bigSep_map]
  exact bigSep_eq_bigSepL tailRefs19 (by decide) _

abbrev endVal (c : Dev nD) (o0 : Buf (Elt F) ((c : Thread nD τ).loc main_v7_0)) (o1 : Buf (Elt F) ((c : Thread nD τ).loc main_v7_1)) :
    Valuation τ sig (Elt F) := StableHlo.after hostOps1 (exitVal m c o0 o1)

theorem endVal_v7_0 (c : Dev nD) (o0 : Buf (Elt F) ((c : Thread nD τ).loc main_v7_0)) (o1 : Buf (Elt F) ((c : Thread nD τ).loc main_v7_1)) :
    endVal m c o0 o1 (Proc.devRef .tc main_v7_0) = o0 := by
  unfold endVal hostOps1
  after_results
  exact exitVal_v7_0 m c o0 o1
theorem endVal_v7_1 (c : Dev nD) (o0 : Buf (Elt F) ((c : Thread nD τ).loc main_v7_0)) (o1 : Buf (Elt F) ((c : Thread nD τ).loc main_v7_1)) :
    endVal m c o0 o1 (Proc.devRef .tc main_v7_1) = o1 := by
  unfold endVal hostOps1
  after_results
  exact exitVal_v7_1 m c o0 o1

theorem held_exit (c : Dev nD) (o0 : Buf (Elt F) ((c : Thread nD τ).loc main_v7_0)) (o1 : Buf (Elt F) ((c : Thread nD τ).loc main_v7_1)) :
    (StableHlo.held (c.tc : Thread nD τ) tailS (exitVal m c o0 o1) : sProp 𝕄)
      = iprop((((c.tc : Thread nD τ).loc main_v7_0) ↦{fullShare} o0) ∗ (((c.tc : Thread nD τ).loc main_v7_1) ↦{fullShare} o1) ∗ (((c.tc : Thread nD τ).loc main_arg0) ↦{fullShare} V m c main_arg0) ∗ (((c.tc : Thread nD τ).loc main_arg1) ↦{fullShare} V m c main_arg1) ∗ (((c.tc : Thread nD τ).loc main_v0) ↦{fullShare} V m c main_v0) ∗ (((c.tc : Thread nD τ).loc main_v2) ↦{fullShare} V m c main_v2) ∗ (((c.tc : Thread nD τ).loc main_v3) ↦{fullShare} V m c main_v3) ∗ (((c.tc : Thread nD τ).loc main_v4) ↦{fullShare} V m c main_v4) ∗ (((c.tc : Thread nD τ).loc main_cst) ↦{fullShare} V m c main_cst) ∗ (((c.tc : Thread nD τ).loc main_v8) ↦{fullShare} V m c main_v8) ∗ (((c.tc : Thread nD τ).loc main_cst_0) ↦{fullShare} V m c main_cst_0) ∗ (((c.tc : Thread nD τ).loc main_v9) ↦{fullShare} V m c main_v9) ∗ (((c.tc : Thread nD τ).loc main_cst_1) ↦{fullShare} V m c main_cst_1) ∗ (((c.tc : Thread nD τ).loc main_v10) ↦{fullShare} V m c main_v10) ∗ (((c.tc : Thread nD τ).loc main_cst_2) ↦{fullShare} V m c main_cst_2) ∗ (((c.tc : Thread nD τ).loc main_v11) ↦{fullShare} V m c main_v11) ∗ (((c.tc : Thread nD τ).loc main_cst_3) ↦{fullShare} V m c main_cst_3) ∗ (((c.tc : Thread nD τ).loc main_v12) ↦{fullShare} V m c main_v12) ∗ (((c.tc : Thread nD τ).loc main_v13) ↦{fullShare} V m c main_v13)) := by
  rw [held_tailS, exitVal_v7_0, exitVal_v7_1,
    exitVal_of_ne m c o0 o1 main_arg0 (by decide) (by decide),
    exitVal_of_ne m c o0 o1 main_arg1 (by decide) (by decide),
    exitVal_of_ne m c o0 o1 main_v0 (by decide) (by decide),
    exitVal_of_ne m c o0 o1 main_v2 (by decide) (by decide),
    exitVal_of_ne m c o0 o1 main_v3 (by decide) (by decide),
    exitVal_of_ne m c o0 o1 main_v4 (by decide) (by decide),
    exitVal_of_ne m c o0 o1 main_cst (by decide) (by decide),
    exitVal_of_ne m c o0 o1 main_v8 (by decide) (by decide),
    exitVal_of_ne m c o0 o1 main_cst_0 (by decide) (by decide),
    exitVal_of_ne m c o0 o1 main_v9 (by decide) (by decide),
    exitVal_of_ne m c o0 o1 main_cst_1 (by decide) (by decide),
    exitVal_of_ne m c o0 o1 main_v10 (by decide) (by decide),
    exitVal_of_ne m c o0 o1 main_cst_2 (by decide) (by decide),
    exitVal_of_ne m c o0 o1 main_v11 (by decide) (by decide),
    exitVal_of_ne m c o0 o1 main_cst_3 (by decide) (by decide),
    exitVal_of_ne m c o0 o1 main_v12 (by decide) (by decide),
    exitVal_of_ne m c o0 o1 main_v13 (by decide) (by decide)]

set_option backward.isDefEq.respectTransparency.types false in

theorem htail_gen {c : Dev nD} (dat : Dat τ (Elt F) Unit ℕ (UR sig nD τ) ℕ cfg0 c)
    (hq0 : dat.q 0 = fullShare.left) (hq1 : dat.q 1 = fullShare.right) (hq2 : dat.q 2 = fullShare) (hq3 : dat.q 3 = fullShare)
    (ops : List (HloOp τ sig (Elt F))) (hsub : ∀ op ∈ ops, op.bufs ⊆ tailS) (hfresh : ∀ op ∈ ops, op.fresh = ∅)
    (hk0 : StableHlo.after ops (exitVal m c (dat.arrAt 4 cfg0.N) (dat.arrAt 5 cfg0.N)) (Proc.devRef .tc main_v7_0) = dat.arrAt 4 cfg0.N)
    (hk1 : StableHlo.after ops (exitVal m c (dat.arrAt 4 cfg0.N) (dat.arrAt 5 cfg0.N)) (Proc.devRef .tc main_v7_1) = dat.arrAt 5 cfg0.N)
    (Q' : PUnit → sProp 𝕄) :
    iprop((iprop(dat.arrays (dat.arrAt · cfg0.N)
              ∗ Pipeline.unscopedRest (Ix := Unit) (Name := ℕ) (U := UR sig nD τ) (Lvl := ℕ) spec0 c
                  (fun b => StableHlo.after ops (exitVal m c (dat.arrAt 4 cfg0.N) (dat.arrAt 5 cfg0.N)) (Proc.devRef .tc b))) -∗ Q' ⟨⟩)
        ∗ boundary (c.tc : Thread nD τ) ∗ dat.arrays (dat.arrAt · cfg0.N)
        ∗ Pipeline.unscopedRest (Ix := Unit) (Name := ℕ) (U := UR sig nD τ) (Lvl := ℕ) spec0 c (V m c))
      ⊢ wp frame (wpE (Pipeline.defs (pcfgs (F := F)) defs₀) (Variants.lift Variants.none) (c.tc : Thread nD τ) none) Set.univ
          (Pipeline.chain [StableHlo.seq ops]) Q' := by
  have hW := held_exit m c (dat.arrAt 4 cfg0.N) (dat.arrAt 5 cfg0.N)
  have hfl : [ops].flatten = ops := by simp
  have hW' := held_tailS (F := F) c (StableHlo.after ops (exitVal m c (dat.arrAt 4 cfg0.N) (dat.arrAt 5 cfg0.N)))
  rw [hk0, hk1] at hW'
  rw [arrays_eq6 dat hq0 hq1 hq2 hq3, unscopedRest0_eq, unscopedRest0_eq,
    show [StableHlo.seq (nD := nD) (Λ := Pipeline.Sig Λ₀ (Fin 1) fun p => (pcfgs (F := F) p).Adm) ops] = [ops].map StableHlo.seq ++ [] from rfl]
  iintro ⟨Hk, Hb, ⟨H1l, H1r, H5, H6, H70, H71⟩, ⟨H_arg0, H_arg1, H_v0, H_v2, H_v3, H_v4, H_cst, H_v8, H_cst_0, H_v9, H_cst_1, H_v10, H_cst_2, H_v11, H_cst_3, H_v12, H_v13⟩⟩
  iapply (Pipeline.wp_seqs_then (pcfgs (F := F)) defs₀ Variants.none c tailS [] [ops]
    (fun o ho op h => by rw [List.mem_singleton] at ho; subst ho; exact hsub op h)
    (fun o ho op h => by rw [List.mem_singleton] at ho; subst ho; exact hfresh op h)
    (exitVal m c (dat.arrAt 4 cfg0.N) (dat.arrAt 5 cfg0.N))) $$ [Hb H70 H71 H_arg0 H_arg1 H_v0 H_v2 H_v3 H_v4 H_cst H_v8 H_cst_0 H_v9 H_cst_1 H_v10 H_cst_2 H_v11 H_cst_3 H_v12 H_v13]
  · rw [hW]
    iframe
  iintro Hb
  rw [Pipeline.chain_nil, wp_pure, hfl, hW']
  imodintro
  iapply Hk
  icases Hb with ⟨-, H70, H71, H_arg0, H_arg1, H_v0, H_v2, H_v3, H_v4, H_cst, H_v8, H_cst_0, H_v9, H_cst_1, H_v10, H_cst_2, H_v11, H_cst_3, H_v12, H_v13⟩
  iframe

theorem V_arg0 (c : Dev nD) : V m c main_arg0 = m ((c.tc : Thread nD τ).loc main_arg0) := by
  simp only [V, V0, hostOps0, List.flatten_cons, List.flatten_nil, List.append_nil]
  after_results
theorem V_arg1 (c : Dev nD) : V m c main_arg1 = m ((c.tc : Thread nD τ).loc main_arg1) := by
  simp only [V, V0, hostOps0, List.flatten_cons, List.flatten_nil, List.append_nil]
  after_results

theorem endVal_arg0 (c : Dev nD) (o0 : Buf (Elt F) ((c : Thread nD τ).loc main_v7_0)) (o1 : Buf (Elt F) ((c : Thread nD τ).loc main_v7_1)) :
    endVal m c o0 o1 (Proc.devRef .tc main_arg0) = m ((c.tc : Thread nD τ).loc main_arg0) := by
  unfold endVal hostOps1
  after_results
  rw [exitVal_of_ne m c o0 o1 main_arg0 (by decide) (by decide), V_arg0]
theorem endVal_arg1 (c : Dev nD) (o0 : Buf (Elt F) ((c : Thread nD τ).loc main_v7_0)) (o1 : Buf (Elt F) ((c : Thread nD τ).loc main_v7_1)) :
    endVal m c o0 o1 (Proc.devRef .tc main_arg1) = m ((c.tc : Thread nD τ).loc main_arg1) := by
  unfold endVal hostOps1
  after_results
  rw [exitVal_of_ne m c o0 o1 main_arg1 (by decide) (by decide), V_arg1]

theorem v13_mem_rest : main_v13 ∈ Pipeline.restRefs sig spec0 := Pipeline.mem_restRefs_of main_v13 rfl (by decide)
theorem arg0_mem_rest : main_arg0 ∈ Pipeline.restRefs sig spec0 := Pipeline.mem_restRefs_of main_arg0 rfl (by decide)
theorem arg1_mem_rest : main_arg1 ∈ Pipeline.restRefs sig spec0 := Pipeline.mem_restRefs_of main_arg1 rfl (by decide)

set_option backward.isDefEq.respectTransparency.types false in

theorem run_main (dats : (p : Fin 1) → (c : Dev nD) → Dat τ (Elt F) Unit ℕ (UR sig nD τ) ℕ (cfgs p) c)
    (hA : ∀ c w, (dats 0 c).A w = V m c (Pipeline.arrRef spec0 w))
    (hq0 : ∀ c, (dats 0 c).q 0 = fullShare.left) (hq1 : ∀ c, (dats 0 c).q 1 = fullShare.right)
    (hq2 : ∀ c, (dats 0 c).q 2 = fullShare) (hq3 : ∀ c, (dats 0 c).q 3 = fullShare)
    (howed : ∀ c t, (dats 0 c).owed t = 0)
    (hbody : ∀ c, Pipeline.BodyObligationLoose (dats 0 c) defs₀ Variants.none () Set.univ)
    (hin : ∀ c, Pipeline.ΦA spec0 c ⊢ (dats 0 c).Φ 0) (hout : ∀ c, (dats 0 c).Φ (Fin.last cfg0.N) ⊢ Pipeline.ΦA spec0 c) :
    θ_run defs (onTc (τ := τ) (main (F := F))) ⟨m, fun _ => 0, ρ⟩ (fun r => ∀ c : Dev nD,
      r.2.mem ((c.tc : Thread nD τ).loc main_v13) = tailVal m c ((dats 0 c).arrAt 4 cfg0.N) ((dats 0 c).arrAt 5 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  classical
  exact Pipeline.θ_run_region_pf_tail (pcfgs (F := F)) (fun p => (cfgs p).toPCfg_adm) dats () cellOf_inj 0 winFacts₀0
    (Pipeline.OwnSemFacts.none _) (Pipeline.PreFacts.none _) emb₁ defs₀ Variants.none m ρ main
    (fun _ => Pipeline.chain [StableHlo.seq hostOps1]) hbody block_pos0 arr_whole0 stage_whole0 howed
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro) (V := V m) (hmain := hmain m Variants.none)
    (hsplit := fun c => hsplit_main m (dats 0 c) (hA c) (hq0 c) (hq1 c) (hq2 c) (hq3 c)) (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (V m c))
    (Z' := fun c => Pipeline.unscopedRest (Ix := Unit) (Name := ℕ) (U := UR sig nD τ) (Lvl := ℕ) spec0 c
      (fun b => endVal m c ((dats 0 c).arrAt 4 cfg0.N) ((dats 0 c).arrAt 5 cfg0.N) (Proc.devRef .tc b)))
    (hX := fun c => by
      rw [Pipeline.unscopedRestP_none]
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin c))
    (hout := fun c => (hout c).trans (by
      rw [Pipeline.ownSems0_none]; unfold Pipeline.ΦA
      iintro ⟨Hr, Hp⟩
      isplitl [Hp]; · iexact Hp
      isplitr; · iempintro
      iexact Hr))
    (htail := fun c Q' => htail_gen m (dats 0 c) (hq0 c) (hq1 c) (hq2 c) (hq3 c) hostOps1
      (List.forall_iff_forall_mem (p := fun op : HloOp τ sig (Elt F) => op.bufs ⊆ tailS).mp hostOps1_subS)
      (List.forall_iff_forall_mem (p := fun op : HloOp τ sig (Elt F) => op.fresh = ∅).mp hostOps1_fresh)
      (endVal_v7_0 m c _ _) (endVal_v7_1 m c _ _) Q')
    (QY := fun c s => ∀ b ∈ Pipeline.restRefs sig spec0, s.mem ((c.tc : Thread nD τ).loc b)
      = endVal m c ((dats 0 c).arrAt 4 cfg0.N) ((dats 0 c).arrAt 5 cfg0.N) (Proc.devRef .tc b))
    (hY := fun c s' => by
      iintro ⟨-, HU, HSI⟩
      unfold Pipeline.unscopedRest
      imodintro
      iapply (pointsTo_read_all (Pipeline.restRefs sig spec0) (fun b => (c.tc : Thread nD τ).loc b)
        (fun b => endVal m c ((dats 0 c).arrAt 4 cfg0.N) ((dats 0 c).arrAt 5 cfg0.N) (Proc.devRef .tc b)) s')
      isplitl [HU] <;> iassumption)
    (hQ := fun s h c => ⟨(h c).2.2 main_v13 v13_mem_rest,
      ((h c).2.2 main_arg0 arg0_mem_rest).trans (endVal_arg0 m c _ _),
      ((h c).2.2 main_arg1 arg1_mem_rest).trans (endVal_arg1 m c _ _)⟩)

end Cert.Kernel.Hand

end
-- ==== Proof.Val.PayA.lean ====
/-
  The body's pure values that hold a per-row quantity, a pointwise combination or a mask, read at coordinates (p, q) of the block.
-/
import proofs.«431328_j9835475108099_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.Val

open Cert.KernelIdeal Cert.KernelIdeal.Gen Idealize.ShloMosaic ValueIdx
open scoped BigOperators

section Layout
variable {α : Type}

theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem transpose_a1_1a_apply {a : ℕ} (x : (⟨2, ![a, 1]⟩ : Shape).Idx → α)
    (h : (⟨2, ![a, 1]⟩ : Shape).Transposes [1, 0] ⟨2, ![1, a]⟩) (u : Fin 1) (i : Fin a) :
    transpose ⟨2, ![1, a]⟩ [1, 0] x h (ix2 u i) = x (ix2 i u) :=
  transpose_ix2_apply x h u i

end Layout

theorem lift_row {a b : ℕ} (h : (⟨2, ![a, b]⟩ : Shape).Reduces [1] ⟨1, ![a]⟩) (p : Fin a) (q : Fin b) :
    h.lift (ix1 p) q = ix2 p q := by
  funext c
  match c with
  | ⟨0, _⟩ => exact Fin.ext rfl
  | ⟨1, _⟩ => exact Fin.ext rfl

theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction (F := Ideal) .add [1] ⟨1, ![a]⟩ src 0x00000000#32 h hφ hacc (ix1 p) = ∑ q : Fin b, src (ix2 p q) := by
  refine (Ideal.multiReduction_add_single src _ h hφ hacc (ix1 p)).trans ?_
  exact Finset.sum_congr rfl fun q _ => congrArg src (lift_row h p q)

private theorem ofBits_ninf : Ideal.ofBits .f32 0xFF800000#32 = (⊥ : EReal) := by
  simp [Ideal.ofBits, Ideal.ieee]

private theorem ofBits_one : Ideal.ofBits .f32 0x3F800000#32 = (1 : EReal) := by
  simp [Ideal.ofBits, Ideal.ieee, -EReal.coe_mul]; norm_num

theorem fold_max_bot {ι : Type} (s : Finset ι) (f : ι → EReal) : s.fold max ⊥ f = s.sup f := by
  classical
  induction s using Finset.induction_on with
  | empty => simp
  | insert a s ha ih => rw [Finset.fold_insert ha, Finset.sup_insert, ih]

theorem fold_max_eq_sup {ι : Type} (s : Finset ι) (f g : ι → EReal) (b : EReal) (hb : b = ⊥) (hfg : f = g) :
    s.fold max b f = s.sup g := by
  subst hb hfg
  exact fold_max_bot s f

theorem rowMax_apply {a b : ℕ} (src : FVec Ideal ⟨2, ![a, b]⟩ .f32) (h : (⟨2, ![a, b]⟩ : Shape).Reduces [1] ⟨1, ![a]⟩)
    (hφ : FKind.Formats .f32) (hacc : (0xFF800000#32 : BitVec 32) = FKind.maximumf.neutral .f32 hφ) (p : Fin a) :
    multiReduction (F := Ideal) .maximumf [1] ⟨1, ![a]⟩ src 0xFF800000#32 h hφ hacc (ix1 p)
      = Finset.univ.sup fun q : Fin b => src (ix2 p q) := by
  refine (Ideal.multiReduction_maximumf_single src _ h hφ hacc (ix1 p)).trans ?_
  exact fold_max_eq_sup (Finset.univ : Finset (Fin b)) _ _ _ ofBits_ninf
    (funext fun q => congrArg src (lift_row h p q))

theorem pay13 (v23 : FVec Ideal S512x512 .f32) (v67 : Vec Ideal S512x1 .f32) (p : Fin 512) :
    k0_pay13 v23 v67 (ix2 p (0 : Fin 1)) = v67 (ix2 p (0 : Fin 1)) + ∑ q : Fin 512, v23 (ix2 p q) := by
  unfold k0_pay13
  rw [shapeCast_self]
  refine (addf_apply _ _ _).trans (congrArg (v67 (ix2 p (0 : Fin 1)) + ·) ?_)
  refine (shapeCast_a_a1_apply _ _ p 0).trans ?_
  exact rowSum_apply v23 _ _ _ p

theorem pay15 (v74 : Vec Ideal S512x1 .f32) (v75 : FVec Ideal S512x512 .f32) (p : Fin 512) :
    k0_pay15 v74 v75 (ix2 p (0 : Fin 1)) = v74 (ix2 p (0 : Fin 1)) + ∑ q : Fin 512, v75 (ix2 p q) := by
  unfold k0_pay15
  rw [shapeCast_self]
  refine (addf_apply _ _ _).trans (congrArg (v74 (ix2 p (0 : Fin 1)) + ·) ?_)
  refine (shapeCast_a_a1_apply _ _ p 0).trans ?_
  exact rowSum_apply v75 _ _ _ p

theorem pay16 (v23 : FVec Ideal S512x512 .f32) (v66 : FVec Ideal S512x512 .f32) (v82 : Vec Ideal S512x1 .f32) (p : Fin 512) :
    k0_pay16 v23 v66 v82 (ix2 p (0 : Fin 1))
      = v82 (ix2 p (0 : Fin 1)) + ∑ q : Fin 512, v23 (ix2 p q) * v66 (ix2 p q) := by
  unfold k0_pay16
  rw [shapeCast_self]
  refine (addf_apply _ _ _).trans (congrArg (v82 (ix2 p (0 : Fin 1)) + ·) ?_)
  refine (shapeCast_a_a1_apply _ _ p 0).trans ?_
  exact rowSum_apply (mulf v23 v66) _ _ _ p

theorem pay14 (v23 : FVec Ideal S512x512 .f32) (v36 : FVec Ideal S512x512 .f32) (p q : Fin 512) :
    k0_pay14 v23 v36 (ix2 p q) = v23 (ix2 p q) * v36 (ix2 p q) := rfl

theorem pay1 (v115 v116 v119 v120 v123 : Vec Ideal S512x1 .f32) (p : Fin 512) :
    k0_pay1 v115 v116 v119 v120 v123 (ix2 p (0 : Fin 1))
      = Ideal.div (v119 (ix2 p (0 : Fin 1)) - v120 (ix2 p (0 : Fin 1)) * (v115 (ix2 p (0 : Fin 1)) + Ideal.log (v116 (ix2 p (0 : Fin 1)))))
          (v123 (ix2 p (0 : Fin 1))) := rfl

theorem pay2 (v126 v127 : Vec Ideal S512x1 .f32) (p : Fin 512) :
    k0_pay2 v126 v127 (ix2 p (0 : Fin 1)) = Ideal.div (v126 (ix2 p (0 : Fin 1))) (v127 (ix2 p (0 : Fin 1))) := rfl

theorem pay3 (p : Fin 512) : k0_pay3 (F := Ideal) (ix2 p (0 : Fin 1)) = 0 := by
  unfold k0_pay3
  rw [shapeCast_self]
  exact Ideal.ofBits_zero_f32

theorem pay4 (p : Fin 512) : k0_pay4 (F := Ideal) (ix2 p (0 : Fin 1)) = 0 := by
  unfold k0_pay4
  rw [shapeCast_self]
  exact Ideal.ofBits_zero_f32

theorem pay5 (p : Fin 512) : k0_pay5 (F := Ideal) (ix2 p (0 : Fin 1)) = 0 := by
  unfold k0_pay5
  rw [shapeCast_self]
  exact Ideal.ofBits_zero_f32

theorem pay6 (p : Fin 512) : k0_pay6 (F := Ideal) (ix2 p (0 : Fin 1)) = ⊥ := by
  unfold k0_pay6
  rw [shapeCast_self]
  exact ofBits_ninf

theorem pay7 (p : Fin 512) : k0_pay7 (F := Ideal) (ix2 p (0 : Fin 1)) = 0 := by
  unfold k0_pay7
  rw [shapeCast_self]
  exact Ideal.ofBits_zero_f32

theorem pay17 (v36 : FVec Ideal S512x512 .f32) (v92 : Vec Ideal S512x1 .f32) (p : Fin 512) :
    k0_pay17 v36 v92 (ix2 p (0 : Fin 1))
      = max (v92 (ix2 p (0 : Fin 1))) (Finset.univ.sup fun q : Fin 512 => v36 (ix2 p q)) := by
  unfold k0_pay17
  refine (maximumf_apply _ _ _).trans (congrArg (max (v92 (ix2 p (0 : Fin 1))) ·) ?_)
  refine (shapeCast_a_a1_apply _ _ p 0).trans ?_
  exact rowMax_apply v36 _ _ _ p

theorem pay19 (v36 : FVec Ideal S512x512 .f32) (v92 : Vec Ideal S512x1 .f32) (p : Fin 512) :
    k0_pay19 v36 v92 (ix2 p (0 : Fin 1))
      = max (v92 (ix2 p (0 : Fin 1))) (Finset.univ.sup fun q : Fin 512 => v36 (ix2 p q)) := by
  unfold k0_pay19
  rw [shapeCast_self]
  exact pay17 v36 v92 p

theorem pay18 (v26 : FVec Ideal S512x512 .f32) (v36 : FVec Ideal S512x512 .f32) (v92 v94 v101 : Vec Ideal S512x1 .f32)
    (p : Fin 512) :
    k0_pay18 v26 v36 v92 v94 v101 (ix2 p (0 : Fin 1))
      = Ideal.exp (v94 (ix2 p (0 : Fin 1)) - max (v92 (ix2 p (0 : Fin 1))) (Finset.univ.sup fun q : Fin 512 => v36 (ix2 p q)))
          * v101 (ix2 p (0 : Fin 1))
        + ∑ q : Fin 512, Ideal.exp (v36 (ix2 p q) - max (v92 (ix2 p (0 : Fin 1))) (Finset.univ.sup fun q : Fin 512 => v36 (ix2 p q)))
            * v26 (ix2 p q) := by
  unfold k0_pay18
  rw [shapeCast_self]
  refine (addf_apply _ _ _).trans ?_
  refine congrArg₂ (· + ·) ?_ ?_
  · show Ideal.exp (v94 (ix2 p (0 : Fin 1)) - k0_pay17 v36 v92 (ix2 p (0 : Fin 1))) * v101 (ix2 p (0 : Fin 1)) = _
    rw [pay17]
  · refine (shapeCast_a_a1_apply _ _ p 0).trans ?_
    refine (rowSum_apply _ _ _ _ p).trans ?_
    refine Finset.sum_congr rfl fun q _ => ?_
    show Ideal.exp (v36 (ix2 p q) - broadcastTo S512x512 (k0_pay17 v36 v92) broadcasts_S512x1_S512x512 (ix2 p q)) * v26 (ix2 p q) = _
    rw [broadcastTo_a1_ab_apply, pay17]

private theorem ofBool_eq_one {b : Bool} : BitVec.ofBool b = 1#1 ↔ b = true := by
  cases b <;> decide

private theorem word_eq_iff (i0 i1 p q : ℕ) (hi0 : i0 < 8) (hi1 : i1 < 8) (hp : p < 512) (hq : q < 512) :
    BitVec.ofNat 32 p + BitVec.ofNat 32 i0 * 512#32 = BitVec.ofNat 32 q + BitVec.ofNat 32 i1 * 512#32
      ↔ 512 * i0 + p = 512 * i1 + q := by
  constructor
  · intro h
    have := congrArg BitVec.toNat h
    simp only [BitVec.toNat_add, BitVec.toNat_mul, BitVec.toNat_ofNat] at this
    omega
  · intro h
    apply BitVec.eq_of_toNat_eq
    simp only [BitVec.toNat_add, BitVec.toNat_mul, BitVec.toNat_ofNat]
    omega

theorem pay8 (i : grid0.Coords) (p q : Fin 512) :
    k0_pay8 i (ix2 p q) = 1#1 ↔ 512 * (i 0).val + p.val = 512 * (i 1).val + q.val := by
  have h0 : iota .tc S512x512 32 [0] iota_S512x512_d0_w32 (ix2 p q) = BitVec.ofNat 32 p.val :=
    iota_single_apply .tc S512x512 32 0 _ (ix2 p q)
  have h1 : iota .tc S512x512 32 [1] iota_S512x512_d1_w32 (ix2 p q) = BitVec.ofNat 32 q.val :=
    iota_single_apply .tc S512x512 32 1 _ (ix2 p q)
  unfold k0_pay8
  show BitVec.ofBool (iota .tc S512x512 32 [0] iota_S512x512_d0_w32 (ix2 p q) + BitVec.ofNat 32 (i 0).val * 512#32
        == iota .tc S512x512 32 [1] iota_S512x512_d1_w32 (ix2 p q) + BitVec.ofNat 32 (i 1).val * 512#32) = 1#1 ↔ _
  rw [h0, h1, ofBool_eq_one, beq_iff_eq]
  exact word_eq_iff _ _ _ _ (i 0).isLt (i 1).isLt p.isLt q.isLt

theorem pay10 (i : grid0.Coords) (p q : Fin 512) :
    k0_pay10 (F := Ideal) i (ix2 p q)
      = if 512 * (i 0).val + p.val = 512 * (i 1).val + q.val then (0 : EReal) else 1 := by
  unfold k0_pay10
  show (if k0_pay8 i (ix2 p q) = 1 then Ideal.ofBits .f32 0x00000000#32 else Ideal.ofBits .f32 0x3F800000#32) = _
  rw [Ideal.ofBits_zero_f32, ofBits_one]
  exact if_congr (pay8 i p q) rfl rfl

private theorem mask_bit (x y : BitVec 32) (b : BitVec 1) :
    IntOp.andi (IntOp.cmpi .eq x y) (IntOp.xori b 1#1) = 1#1 ↔ x = y ∧ ¬ b = 1#1 := by
  have hc : IntOp.cmpi .eq x y = if x = y then 1#1 else 0#1 := by
    unfold IntOp.cmpi
    by_cases h : x = y
    · simp [h]
    · have hb : (x == y) = false := beq_eq_false_iff_ne.mpr h
      simp [h, hb]
  rw [hc]
  rcases BitVec.eq_zero_or_eq_one b with rfl | rfl <;> by_cases h : x = y <;> simp [h, IntOp.andi, IntOp.xori]

theorem pay9 (i : grid0.Coords) (v12 : Vec Ideal S512x1 .i32) (v14 : Vec Ideal S1x512 .i32) (p q : Fin 512) :
    k0_pay9 i v12 v14 (ix2 p q)
      = if v12 (ix2 p (0 : Fin 1)) = v14 (ix2 (0 : Fin 1) q)
            ∧ 512 * (i 0).val + p.val ≠ 512 * (i 1).val + q.val then (1 : EReal) else 0 := by
  unfold k0_pay9
  rw [shapeCast_self, shapeCast_self]
  show (if IntOp.andi (IntOp.cmpi .eq (broadcastTo S512x512 v12 broadcasts_S512x1_S512x512 (ix2 p q))
            (broadcastTo S512x512 v14 broadcasts_S1x512_S512x512 (ix2 p q))) (IntOp.xori (k0_pay8 i (ix2 p q)) 1#1) = 1
        then Ideal.ofBits .f32 0x3F800000#32 else Ideal.ofBits .f32 0x00000000#32) = _
  rw [broadcastTo_a1_ab_apply, broadcastTo_1b_ab_apply, ofBits_one, Ideal.ofBits_zero_f32]
  refine if_congr ?_ rfl rfl
  refine (mask_bit _ _ _).trans (and_congr Iff.rfl (not_congr (pay8 i p q)))

end Cert.Val

end
-- ==== Proof.Online.lean ====
/-
  Running totals over 8 column blocks of 512 against flat sums over 4096 columns: a running sum ends at the flat sum, the running
  maximum at the row's maximum, and the running sum of exponentials, rescaled by exp (old max - new max) whenever the maximum moves,
  at ∑ k, exp (L k - max) * off k, because exp (a - b) * exp (b - c) = exp (a - c) on the reals.
-/
import Idealize.ShloMosaic.PureOps.Ideal
import Mathlib.Analysis.SpecialFunctions.Log.Basic
import Mathlib.Analysis.SpecialFunctions.Exp
import Mathlib.Logic.Equiv.Fin.Basic
import Mathlib.Algebra.BigOperators.Fin
import Mathlib.Data.EReal.Operations

noncomputable section

namespace Cert.Online

open Idealize.ShloMosaic

def flat {α : Type} (f : ℕ → Fin 512 → α) (k : Fin 4096) : α := f (k.val / 512) ⟨k.val % 512, Nat.mod_lt _ (by norm_num)⟩

def acc (f : ℕ → Fin 512 → EReal) : ℕ → EReal
  | 0 => 0
  | n + 1 => acc f n + ∑ q : Fin 512, f n q

def mx (L : ℕ → Fin 512 → EReal) : ℕ → EReal
  | 0 => ⊥
  | n + 1 => max (mx L n) (Finset.univ.sup fun q : Fin 512 => L n q)

def lsum (L off : ℕ → Fin 512 → EReal) : ℕ → EReal
  | 0 => 0
  | n + 1 => Ideal.exp (mx L n - mx L (n + 1)) * lsum L off n + ∑ q : Fin 512, Ideal.exp (L n q - mx L (n + 1)) * off n q

theorem flat_mk {α : Type} (f : ℕ → Fin 512 → α) (J : ℕ) (q : Fin 512) (h : q.val + 512 * J < 4096) :
    flat f ⟨q.val + 512 * J, h⟩ = f J q := by
  have h1 : (q.val + 512 * J) / 512 = J := by omega
  have h2 : (q.val + 512 * J) % 512 = q.val := by omega
  unfold flat
  simp only [h1, h2]

theorem sum_flat (g : ℕ → Fin 512 → EReal) :
    ∑ k : Fin 4096, flat g k = ∑ J ∈ Finset.range 8, ∑ q : Fin 512, g J q := by
  have hlt : ∀ p : Fin 8 × Fin 512, p.2.val + 512 * p.1.val < 4096 := fun p => by
    have h1 := p.1.isLt
    have h2 := p.2.isLt
    omega
  calc ∑ k : Fin 4096, flat g k
      = ∑ p : Fin 8 × Fin 512, g p.1.val p.2 :=
        (Fintype.sum_equiv (finProdFinEquiv : Fin 8 × Fin 512 ≃ Fin 4096) (fun p => g p.1.val p.2) (fun k => flat g k)
          (fun p => (flat_mk g p.1.val p.2 (hlt p)).symm)).symm
    _ = ∑ J : Fin 8, ∑ q : Fin 512, g J.val q := Fintype.sum_prod_type _
    _ = ∑ J ∈ Finset.range 8, ∑ q : Fin 512, g J q :=
        Fin.sum_univ_eq_sum_range (fun J => ∑ q : Fin 512, g J q) 8

theorem acc_range (f : ℕ → Fin 512 → EReal) (n : ℕ) :
    acc f n = ∑ J ∈ Finset.range n, ∑ q : Fin 512, f J q := by
  induction n with
  | zero => rfl
  | succ n ih => rw [acc, ih, Finset.sum_range_succ]

theorem acc_eq (f : ℕ → Fin 512 → EReal) : acc f 8 = ∑ k : Fin 4096, flat f k := by
  rw [acc_range, sum_flat]

theorem mx_succ (L : ℕ → Fin 512 → EReal) (n : ℕ) :
    mx L (n + 1) = max (mx L n) (Finset.univ.sup fun q : Fin 512 => L n q) := rfl

theorem mx_range (L : ℕ → Fin 512 → EReal) (n : ℕ) :
    mx L n = (Finset.range n).sup fun J => Finset.univ.sup fun q : Fin 512 => L J q := by
  induction n with
  | zero => rfl
  | succ n ih => rw [mx_succ, ih, Finset.range_add_one, Finset.sup_insert, max_comm]

theorem mx_eq (L : ℕ → Fin 512 → EReal) : mx L 8 = Finset.univ.sup fun k : Fin 4096 => flat L k := by
  rw [mx_range]
  apply le_antisymm
  · refine Finset.sup_le fun J hJ => Finset.sup_le fun q _ => ?_
    have hJ' : J < 8 := Finset.mem_range.mp hJ
    have hq := q.isLt
    have h : q.val + 512 * J < 4096 := by omega
    rw [← flat_mk L J q h]
    exact Finset.le_sup (f := fun k : Fin 4096 => flat L k) (Finset.mem_univ _)
  · refine Finset.sup_le fun k _ => ?_
    have hk : k.val / 512 < 8 := by
      have := k.isLt
      omega
    exact le_trans
      (Finset.le_sup (f := fun q : Fin 512 => L (k.val / 512) q) (Finset.mem_univ _))
      (Finset.le_sup (f := fun J => Finset.univ.sup fun q : Fin 512 => L J q) (Finset.mem_range.mpr hk))

theorem lsum_succ (L off : ℕ → Fin 512 → EReal) (n : ℕ) :
    lsum L off (n + 1) = Ideal.exp (mx L n - mx L (n + 1)) * lsum L off n
      + ∑ q : Fin 512, Ideal.exp (L n q - mx L (n + 1)) * off n q := rfl

theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem sup_coe (l : Fin 512 → ℝ) : ∃ c : ℝ, (Finset.univ.sup fun q : Fin 512 => (l q : EReal)) = (c : EReal) := by
  obtain ⟨i, _, hi⟩ := Finset.exists_mem_eq_sup Finset.univ Finset.univ_nonempty (fun q : Fin 512 => (l q : EReal))
  exact ⟨l i, hi⟩

theorem max_coe (a c : ℝ) : max (a : EReal) (c : EReal) = ((max a c : ℝ) : EReal) := by
  rcases le_total a c with h | h
  · rw [max_eq_right h, max_eq_right (EReal.coe_le_coe_iff.mpr h)]
  · rw [max_eq_left h, max_eq_left (EReal.coe_le_coe_iff.mpr h)]

theorem mx_real (l : ℕ → Fin 512 → ℝ) (n : ℕ) :
    ∃ a : ℝ, mx (fun J q => (l J q : EReal)) (n + 1) = (a : EReal) := by
  induction n with
  | zero =>
    obtain ⟨c, hc⟩ := sup_coe (l 0)
    refine ⟨c, ?_⟩
    rw [mx_succ, hc]
    exact max_bot_left _
  | succ n ih =>
    obtain ⟨a, ha⟩ := ih
    obtain ⟨c, hc⟩ := sup_coe (l (n + 1))
    refine ⟨max a c, ?_⟩
    rw [mx_succ, ha, hc, max_coe]

theorem dsum_coe (l o : ℕ → Fin 512 → ℝ) (c : ℝ) (n : ℕ) :
    ∑ J ∈ Finset.range n, ∑ q : Fin 512, Ideal.exp ((l J q : EReal) - (c : EReal)) * (o J q : EReal)
      = ((∑ J ∈ Finset.range n, ∑ q : Fin 512, Real.exp (l J q - c) * o J q : ℝ) : EReal) := by
  rw [coe_sum]
  refine Finset.sum_congr rfl fun J _ => ?_
  rw [coe_sum]
  refine Finset.sum_congr rfl fun q _ => ?_
  rw [← EReal.coe_sub, Ideal.exp_coe, ← EReal.coe_mul]

theorem lsum_range (l o : ℕ → Fin 512 → ℝ) (n : ℕ) :
    lsum (fun J q => (l J q : EReal)) (fun J q => (o J q : EReal)) n
      = ∑ J ∈ Finset.range n, ∑ q : Fin 512,
          Ideal.exp ((l J q : EReal) - mx (fun J q => (l J q : EReal)) n) * (o J q : EReal) := by
  induction n with
  | zero => rfl
  | succ n ih =>
    rw [lsum_succ, Finset.sum_range_succ]
    congr 1
    cases n with
    | zero =>
      rw [show lsum (fun J q => (l J q : EReal)) (fun J q => (o J q : EReal)) 0 = 0 from rfl, mul_zero,
        Finset.range_zero, Finset.sum_empty]
    | succ m =>
      obtain ⟨a, ha⟩ := mx_real l m
      obtain ⟨b, hb⟩ := mx_real l (m + 1)
      rw [ih, ha, hb, dsum_coe, dsum_coe, ← EReal.coe_sub, Ideal.exp_coe, ← EReal.coe_mul]
      congr 1
      rw [Finset.mul_sum]
      refine Finset.sum_congr rfl fun J _ => ?_
      rw [Finset.mul_sum]
      refine Finset.sum_congr rfl fun q _ => ?_
      rw [← mul_assoc, ← Real.exp_add, show a - b + (l J q - a) = l J q - b by ring]

theorem lsum_eq (L off : ℕ → Fin 512 → EReal) (hL : ∀ J q, ∃ v : ℝ, L J q = (v : EReal))
    (hoff : ∀ J q, off J q = 0 ∨ off J q = 1) :
    lsum L off 8 = ∑ k : Fin 4096, Ideal.exp (flat L k - mx L 8) * flat off k := by
  have ho : ∀ J q, ∃ v : ℝ, off J q = (v : EReal) := fun J q => by
    rcases hoff J q with h | h
    · exact ⟨0, by rw [h, EReal.coe_zero]⟩
    · exact ⟨1, by rw [h, EReal.coe_one]⟩
  choose l hl using hL
  choose o ho' using ho
  obtain rfl : L = fun J q => (l J q : EReal) := funext fun J => funext fun q => hl J q
  obtain rfl : off = fun J q => (o J q : EReal) := funext fun J => funext fun q => ho' J q
  rw [lsum_range]
  exact (sum_flat (fun J q => Ideal.exp ((l J q : EReal) - mx (fun J q => (l J q : EReal)) 8) * (o J q : EReal))).symm

theorem mean_eq (P L : Fin 4096 → EReal) (M S : EReal) (hP : ∀ k, P k = 0 ∨ P k = 1)
    (hL : ∀ k, ∃ v : ℝ, L k = (v : EReal)) (hM : ∃ v : ℝ, M = (v : EReal)) (hS : ∃ v : ℝ, 0 < v ∧ S = (v : EReal)) :
    Ideal.div ((∑ k, P k * L k) - (∑ k, P k) * (M + Ideal.log S)) (∑ k, P k)
      = Ideal.div (∑ k, P k * ((L k - M) - Ideal.log S)) (∑ k, P k) := by
  have hP' : ∀ k, ∃ v : ℝ, P k = (v : EReal) := fun k => by
    rcases hP k with h | h
    · exact ⟨0, by rw [h, EReal.coe_zero]⟩
    · exact ⟨1, by rw [h, EReal.coe_one]⟩
  choose p hp using hP'
  choose l hl using hL
  obtain ⟨m, rfl⟩ := hM
  obtain ⟨s, hs, rfl⟩ := hS
  have hlog : Ideal.log (s : EReal) = ((Real.log s : ℝ) : EReal) := by
    rw [Ideal.log_coe, if_neg (not_le.mpr hs)]
  have e1 : ∑ k, P k * L k = ((∑ k, p k * l k : ℝ) : EReal) := by
    rw [coe_sum]
    exact Finset.sum_congr rfl fun k _ => by rw [hp, hl, EReal.coe_mul]
  have e2 : ∑ k, P k = ((∑ k, p k : ℝ) : EReal) := by
    rw [coe_sum]
    exact Finset.sum_congr rfl fun k _ => hp k
  have e3 : ∑ k, P k * ((L k - (m : EReal)) - Ideal.log (s : EReal))
      = ((∑ k, p k * ((l k - m) - Real.log s) : ℝ) : EReal) := by
    rw [coe_sum]
    exact Finset.sum_congr rfl fun k _ => by rw [hp, hl, hlog, EReal.coe_mul, EReal.coe_sub, EReal.coe_sub]
  rw [e1, e2, e3, hlog, ← EReal.coe_add, ← EReal.coe_mul, ← EReal.coe_sub]
  congr 2
  rw [Finset.sum_mul, ← Finset.sum_sub_distrib]
  refine Finset.sum_congr rfl fun k _ => ?_
  ring

end Cert.Online

end
-- ==== Proof.Val.RowsA.lean ====
/-
  One column block's update takes each of a row's five running totals after J blocks to the total after J + 1.
-/
import proofs.«431328_j9835475108099_1_alg».proof.Proof.Val.PayA
import proofs.«431328_j9835475108099_1_alg».proof.Proof.Spec
import proofs.«431328_j9835475108099_1_alg».proof.Proof.Online

noncomputable section

namespace Cert.Val

open Cert.KernelIdeal Cert.KernelIdeal.Gen Idealize.ShloMosaic ValueIdx
open Cert.Online
open scoped BigOperators

theorem col_lt (J : ℕ) (h : J < 8) (q : Fin 512) : 512 * J + q.val < 4096 := by
  have := q.isLt
  omega

def posB (lb : Cert.Spec.Lab) (r : Fin 4096) (J : ℕ) (q : Fin 512) : EReal :=
  if h : J < 8 then Cert.Spec.pos lb r ⟨512 * J + q.val, col_lt J h q⟩ else 0

def logitB (x : Cert.Spec.Feat) (r : Fin 4096) (J : ℕ) (q : Fin 512) : EReal :=
  if h : J < 8 then Cert.Spec.logit x r ⟨512 * J + q.val, col_lt J h q⟩ else 0

def distB (x : Cert.Spec.Feat) (r : Fin 4096) (J : ℕ) (q : Fin 512) : EReal :=
  if h : J < 8 then Cert.Spec.dist x r ⟨512 * J + q.val, col_lt J h q⟩ else 0

def offB (r : Fin 4096) (J : ℕ) (q : Fin 512) : EReal :=
  if h : J < 8 then Cert.Spec.offd r ⟨512 * J + q.val, col_lt J h q⟩ else 0

theorem col_flat (k : Fin 4096) (h : k.val / 512 < 8) :
    (⟨512 * (k.val / 512) + k.val % 512, col_lt (k.val / 512) h ⟨k.val % 512, Nat.mod_lt _ (by norm_num)⟩⟩ : Fin 4096) = k :=
  Fin.ext (Nat.div_add_mod k.val 512)

theorem blk_lt (k : Fin 4096) : k.val / 512 < 8 := by
  have := k.isLt
  omega

theorem flat_posB (lb : Cert.Spec.Lab) (r k : Fin 4096) : flat (posB lb r) k = Cert.Spec.pos lb r k := by
  unfold flat posB
  rw [dif_pos (blk_lt k)]
  exact congrArg (Cert.Spec.pos lb r) (col_flat k (blk_lt k))

theorem flat_logitB (x : Cert.Spec.Feat) (r k : Fin 4096) : flat (logitB x r) k = Cert.Spec.logit x r k := by
  unfold flat logitB
  rw [dif_pos (blk_lt k)]
  exact congrArg (Cert.Spec.logit x r) (col_flat k (blk_lt k))

theorem flat_distB (x : Cert.Spec.Feat) (r k : Fin 4096) : flat (distB x r) k = Cert.Spec.dist x r k := by
  unfold flat distB
  rw [dif_pos (blk_lt k)]
  exact congrArg (Cert.Spec.dist x r) (col_flat k (blk_lt k))

theorem flat_offB (r k : Fin 4096) : flat (offB r) k = Cert.Spec.offd r k := by
  unfold flat offB
  rw [dif_pos (blk_lt k)]
  exact congrArg (Cert.Spec.offd r) (col_flat k (blk_lt k))

theorem cnt_step (f : ℕ → Fin 512 → EReal) (J : ℕ) (mask : FVec Ideal S512x512 .f32) (xs : Vec Ideal S512x1 .f32)
    (p : Fin 512) (hm : ∀ q : Fin 512, mask (ix2 p q) = f J q) (hx : xs (ix2 p (0 : Fin 1)) = acc f J) :
    k0_pay13 mask xs (ix2 p (0 : Fin 1)) = acc f (J + 1) := by
  rw [pay13, hx]
  show _ = acc f J + ∑ q : Fin 512, f J q
  exact congrArg (acc f J + ·) (Finset.sum_congr rfl fun q _ => hm q)

theorem logit_step (f g : ℕ → Fin 512 → EReal) (J : ℕ) (mask lg : FVec Ideal S512x512 .f32) (xs : Vec Ideal S512x1 .f32)
    (p : Fin 512) (hm : ∀ q : Fin 512, mask (ix2 p q) = f J q) (hl : ∀ q : Fin 512, lg (ix2 p q) = g J q)
    (hx : xs (ix2 p (0 : Fin 1)) = acc (fun J q => f J q * g J q) J) :
    k0_pay15 xs (k0_pay14 mask lg) (ix2 p (0 : Fin 1)) = acc (fun J q => f J q * g J q) (J + 1) := by
  rw [pay15, hx]
  show _ = acc (fun J q => f J q * g J q) J + ∑ q : Fin 512, f J q * g J q
  refine congrArg (acc (fun J q => f J q * g J q) J + ·) (Finset.sum_congr rfl fun q _ => ?_)
  rw [pay14, hm, hl]

theorem dist_step (f g : ℕ → Fin 512 → EReal) (J : ℕ) (mask ds : FVec Ideal S512x512 .f32) (xs : Vec Ideal S512x1 .f32)
    (p : Fin 512) (hm : ∀ q : Fin 512, mask (ix2 p q) = f J q) (hd : ∀ q : Fin 512, ds (ix2 p q) = g J q)
    (hx : xs (ix2 p (0 : Fin 1)) = acc (fun J q => f J q * g J q) J) :
    k0_pay16 mask ds xs (ix2 p (0 : Fin 1)) = acc (fun J q => f J q * g J q) (J + 1) := by
  rw [pay16, hx]
  show _ = acc (fun J q => f J q * g J q) J + ∑ q : Fin 512, f J q * g J q
  refine congrArg (acc (fun J q => f J q * g J q) J + ·) (Finset.sum_congr rfl fun q _ => ?_)
  rw [hm, hd]

theorem mx_step (g : ℕ → Fin 512 → EReal) (J : ℕ) (lg : FVec Ideal S512x512 .f32) (xs : Vec Ideal S512x1 .f32)
    (p : Fin 512) (hl : ∀ q : Fin 512, lg (ix2 p q) = g J q) (hx : xs (ix2 p (0 : Fin 1)) = mx g J) :
    k0_pay19 lg xs (ix2 p (0 : Fin 1)) = mx g (J + 1) := by
  rw [pay19, hx, mx_succ]
  exact congrArg (max (mx g J) ·) (congrArg Finset.univ.sup (funext fun q => hl q))

theorem lsum_step (g o : ℕ → Fin 512 → EReal) (J : ℕ) (off lg : FVec Ideal S512x512 .f32) (xm xs : Vec Ideal S512x1 .f32)
    (p : Fin 512) (ho : ∀ q : Fin 512, off (ix2 p q) = o J q) (hl : ∀ q : Fin 512, lg (ix2 p q) = g J q)
    (hm : xm (ix2 p (0 : Fin 1)) = mx g J) (hx : xs (ix2 p (0 : Fin 1)) = lsum g o J) :
    k0_pay18 off lg xm xm xs (ix2 p (0 : Fin 1)) = lsum g o (J + 1) := by
  have hs : (Finset.univ.sup fun q : Fin 512 => lg (ix2 p q)) = Finset.univ.sup fun q : Fin 512 => g J q :=
    congrArg Finset.univ.sup (funext fun q => hl q)
  rw [pay18, hm, hx, hs, lsum_succ, mx_succ]
  refine congrArg (_ + ·) (Finset.sum_congr rfl fun q _ => ?_)
  rw [hl, ho]

end Cert.Val

end
-- ==== Proof.Val.PayB.lean ====
/-
  The body's two values with a contraction, read at (p, q): a product with a transpose is a sum over the features, and narrowing
  the operands is the identity on the extended reals.
-/
import proofs.«431328_j9835475108099_1_alg».proof.Proof.Val.PayA
import proofs.«431328_j9835475108099_1_alg».proof.Proof.Spec
import proofs.«431328_j9835475108099_1_alg».proof.Proof.Consts

noncomputable section

namespace Cert.Val

open Cert.KernelIdeal Cert.KernelIdeal.Gen Idealize.ShloMosaic ValueIdx
open scoped BigOperators

theorem lhs192_0 (i : S512x512.Idx) (k : dot_S512x192_S192x512_S512x512_1_0_0_1_n_n.contr.Idx) :
    (dot_S512x192_S192x512_S512x512_1_0_0_1_n_n.lhsIdx i k 0).val = (i 0).val := by
  unfold DotDims.lhsIdx
  rw [dif_neg (show ¬(0 : Fin S512x192.rank) ∈ dot_S512x192_S192x512_S512x512_1_0_0_1_n_n.lhsBatch by decide),
    dif_pos (show (0 : Fin S512x192.rank) ∈ dot_S512x192_S192x512_S512x512_1_0_0_1_n_n.lhsNonContracting by decide)]
  rfl
theorem lhs192_1 (i : S512x512.Idx) (k : dot_S512x192_S192x512_S512x512_1_0_0_1_n_n.contr.Idx) :
    (dot_S512x192_S192x512_S512x512_1_0_0_1_n_n.lhsIdx i k 1).val = (k ⟨0, by decide⟩).val :=
  dot_S512x192_S192x512_S512x512_1_0_0_1_n_n.lhsIdx_val_of_single rfl i k
theorem rhs192_0 (i : S512x512.Idx) (k : dot_S512x192_S192x512_S512x512_1_0_0_1_n_n.contr.Idx) :
    (dot_S512x192_S192x512_S512x512_1_0_0_1_n_n.rhsIdx i k 0).val = (k ⟨0, by decide⟩).val :=
  dot_S512x192_S192x512_S512x512_1_0_0_1_n_n.rhsIdx_val_of_single rfl i k
theorem rhs192_1 (i : S512x512.Idx) (k : dot_S512x192_S192x512_S512x512_1_0_0_1_n_n.contr.Idx) :
    (dot_S512x192_S192x512_S512x512_1_0_0_1_n_n.rhsIdx i k 1).val = (i 1).val := by
  unfold DotDims.rhsIdx
  rw [dif_neg (show ¬(1 : Fin S192x512.rank) ∈ dot_S512x192_S192x512_S512x512_1_0_0_1_n_n.rhsBatch by decide),
    dif_pos (show (1 : Fin S192x512.rank) ∈ dot_S512x192_S192x512_S512x512_1_0_0_1_n_n.rhsNonContracting by decide)]
  rfl

theorem lhs92_0 (i : S512x512.Idx) (k : dot_S512x92_S92x512_S512x512_1_0_0_1_n_n.contr.Idx) :
    (dot_S512x92_S92x512_S512x512_1_0_0_1_n_n.lhsIdx i k 0).val = (i 0).val := by
  unfold DotDims.lhsIdx
  rw [dif_neg (show ¬(0 : Fin S512x92.rank) ∈ dot_S512x92_S92x512_S512x512_1_0_0_1_n_n.lhsBatch by decide),
    dif_pos (show (0 : Fin S512x92.rank) ∈ dot_S512x92_S92x512_S512x512_1_0_0_1_n_n.lhsNonContracting by decide)]
  rfl
theorem lhs92_1 (i : S512x512.Idx) (k : dot_S512x92_S92x512_S512x512_1_0_0_1_n_n.contr.Idx) :
    (dot_S512x92_S92x512_S512x512_1_0_0_1_n_n.lhsIdx i k 1).val = (k ⟨0, by decide⟩).val :=
  dot_S512x92_S92x512_S512x512_1_0_0_1_n_n.lhsIdx_val_of_single rfl i k
theorem rhs92_0 (i : S512x512.Idx) (k : dot_S512x92_S92x512_S512x512_1_0_0_1_n_n.contr.Idx) :
    (dot_S512x92_S92x512_S512x512_1_0_0_1_n_n.rhsIdx i k 0).val = (k ⟨0, by decide⟩).val :=
  dot_S512x92_S92x512_S512x512_1_0_0_1_n_n.rhsIdx_val_of_single rfl i k
theorem rhs92_1 (i : S512x512.Idx) (k : dot_S512x92_S92x512_S512x512_1_0_0_1_n_n.contr.Idx) :
    (dot_S512x92_S92x512_S512x512_1_0_0_1_n_n.rhsIdx i k 1).val = (i 1).val := by
  unfold DotDims.rhsIdx
  rw [dif_neg (show ¬(1 : Fin S92x512.rank) ∈ dot_S512x92_S92x512_S512x512_1_0_0_1_n_n.rhsBatch by decide),
    dif_pos (show (1 : Fin S92x512.rank) ∈ dot_S512x92_S92x512_S512x512_1_0_0_1_n_n.rhsNonContracting by decide)]
  rfl

theorem matmul192_apply {φ₁ φ₂ : FTy} (prec : Option ContractPrecision) (lhs : FVec Ideal S512x192 φ₁)
    (rhs : FVec Ideal S192x512 φ₂) (p q : Fin 512) :
    matmul dot_S512x192_S192x512_S512x512_1_0_0_1_n_n prec lhs rhs (constant (F := Ideal) S512x512 .f32 0x00000000#32) (ix2 p q)
      = ∑ d : Fin 192, lhs (ix2 p d) * rhs (ix2 d q) := by
  simp only [matmul]
  rw [Ideal.matmul_constant_zero_apply,
    ← Equiv.sum_comp (contrEquiv1 dot_S512x192_S192x512_S512x512_1_0_0_1_n_n 192 rfl rfl).symm]
  refine Finset.sum_congr rfl fun k _ => ?_
  have hk := contrEquiv1_symm_val dot_S512x192_S192x512_S512x512_1_0_0_1_n_n 192 rfl rfl k
  have el : dot_S512x192_S192x512_S512x512_1_0_0_1_n_n.lhsIdx (ix2 p q)
      ((contrEquiv1 dot_S512x192_S192x512_S512x512_1_0_0_1_n_n 192 rfl rfl).symm k) = ix2 p k :=
    funext fun a => Fin.ext (by
      match a with
      | ⟨0, _⟩ => exact lhs192_0 _ _
      | ⟨1, _⟩ => exact (lhs192_1 _ _).trans hk)
  have er : dot_S512x192_S192x512_S512x512_1_0_0_1_n_n.rhsIdx (ix2 p q)
      ((contrEquiv1 dot_S512x192_S192x512_S512x512_1_0_0_1_n_n 192 rfl rfl).symm k) = ix2 k q :=
    funext fun a => Fin.ext (by
      match a with
      | ⟨0, _⟩ => exact (rhs192_0 _ _).trans hk
      | ⟨1, _⟩ => exact rhs192_1 _ _)
  rw [el, er]

theorem matmul92_apply {φ₁ φ₂ : FTy} (prec : Option ContractPrecision) (lhs : FVec Ideal S512x92 φ₁)
    (rhs : FVec Ideal S92x512 φ₂) (p q : Fin 512) :
    matmul dot_S512x92_S92x512_S512x512_1_0_0_1_n_n prec lhs rhs (constant (F := Ideal) S512x512 .f32 0x00000000#32) (ix2 p q)
      = ∑ d : Fin 92, lhs (ix2 p d) * rhs (ix2 d q) := by
  simp only [matmul]
  rw [Ideal.matmul_constant_zero_apply,
    ← Equiv.sum_comp (contrEquiv1 dot_S512x92_S92x512_S512x512_1_0_0_1_n_n 92 rfl rfl).symm]
  refine Finset.sum_congr rfl fun k _ => ?_
  have hk := contrEquiv1_symm_val dot_S512x92_S92x512_S512x512_1_0_0_1_n_n 92 rfl rfl k
  have el : dot_S512x92_S92x512_S512x512_1_0_0_1_n_n.lhsIdx (ix2 p q)
      ((contrEquiv1 dot_S512x92_S92x512_S512x512_1_0_0_1_n_n 92 rfl rfl).symm k) = ix2 p k :=
    funext fun a => Fin.ext (by
      match a with
      | ⟨0, _⟩ => exact lhs92_0 _ _
      | ⟨1, _⟩ => exact (lhs92_1 _ _).trans hk)
  have er : dot_S512x92_S92x512_S512x512_1_0_0_1_n_n.rhsIdx (ix2 p q)
      ((contrEquiv1 dot_S512x92_S92x512_S512x512_1_0_0_1_n_n 92 rfl rfl).symm k) = ix2 k q :=
    funext fun a => Fin.ext (by
      match a with
      | ⟨0, _⟩ => exact (rhs92_0 _ _).trans hk
      | ⟨1, _⟩ => exact rhs92_1 _ _)
  rw [el, er]

theorem pay11_of (hκ : Named.named (F := Ideal) Cert.KernelIdeal.κ "inv_temperature" (φ := .f32) 0x41649249#32 = Cert.Spec.invT)
    (v27 v30 : Vec Ideal S512x192 .f32) (p q : Fin 512) :
    k0_pay11 v27 v30 (ix2 p q) = (∑ d : Fin 192, v27 (ix2 p d) * v30 (ix2 q d)) * Cert.Spec.invT := by
  unfold k0_pay11
  rw [shapeCast_self, shapeCast_self]
  refine (mulf_apply _ _ _).trans ?_
  refine congrArg₂ (· * ·) ?_ hκ
  refine (matmul192_apply none _ _ p q).trans ?_
  refine Finset.sum_congr rfl fun d _ => ?_
  refine congrArg (v27 (ix2 p d) * ·) ?_
  exact transpose_ix2_apply _ _ d q

theorem pay11 (v27 v30 : Vec Ideal S512x192 .f32) (p q : Fin 512) :
    k0_pay11 v27 v30 (ix2 p q) = (∑ d : Fin 192, v27 (ix2 p d) * v30 (ix2 q d)) * Cert.Spec.invT :=
  pay11_of Cert.Consts.named_invT v27 v30 p q

theorem sqRow_apply (x : FVec Ideal S512x92 .f32) (p q : Fin 512) :
    broadcastTo S512x512
        (shapeCast S512x1 (multiReduction (F := Ideal) .add [1] S512 (mulf x x) 0x00000000#32 reduces_S512x92_S512 (.inl rfl) rfl)
          shapeCasts_S512_S512x1) broadcasts_S512x1_S512x512 (ix2 p q)
      = ∑ d : Fin 92, x (ix2 p d) * x (ix2 p d) := by
  refine (broadcastTo_a1_ab_apply _ _ p q).trans ?_
  refine (shapeCast_a_a1_apply _ _ p 0).trans ?_
  exact rowSum_apply (mulf x x) _ _ _ p

theorem sqCol_apply (x : FVec Ideal S512x92 .f32) (p q : Fin 512) :
    broadcastTo S512x512
        (transpose S1x512 [1, 0]
          (shapeCast S512x1 (multiReduction (F := Ideal) .add [1] S512 (mulf x x) 0x00000000#32 reduces_S512x92_S512 (.inl rfl) rfl)
            shapeCasts_S512_S512x1) transposes_S512x1_p1_0_S1x512) broadcasts_S1x512_S512x512 (ix2 p q)
      = ∑ d : Fin 92, x (ix2 q d) * x (ix2 q d) := by
  refine (broadcastTo_1b_ab_apply _ _ p q).trans ?_
  refine (transpose_a1_1a_apply _ _ 0 q).trans ?_
  refine (shapeCast_a_a1_apply _ _ q 0).trans ?_
  exact rowSum_apply (mulf x x) _ _ _ q

theorem gram_apply (prec : Option ContractPrecision) (x y : FVec Ideal S512x92 .f32) (p q : Fin 512) :
    matmul dot_S512x92_S92x512_S512x512_1_0_0_1_n_n prec x (transpose S92x512 [1, 0] y transposes_S512x92_p1_0_S92x512)
        (constant (F := Ideal) S512x512 .f32 0x00000000#32) (ix2 p q)
      = ∑ d : Fin 92, x (ix2 p d) * y (ix2 q d) := by
  refine (matmul92_apply prec _ _ p q).trans ?_
  refine Finset.sum_congr rfl fun d _ => ?_
  exact congrArg (x (ix2 p d) * ·) (transpose_ix2_apply _ _ d q)

private theorem cmp_ogt_iff (x y : EReal) : Ideal.cmp .ogt x y = 1 ↔ y < x := by
  unfold Ideal.cmp
  by_cases h : y < x <;> simp [h]

private theorem dist_select (e one : EReal) :
    Scalar.select (Ideal.cmp .ogt e Cert.Spec.eps) (Ideal.sqrt (Scalar.select (Ideal.cmp .ogt e Cert.Spec.eps) e one)) 0
      = if Cert.Spec.eps < e then Ideal.sqrt e else 0 := by
  unfold Scalar.select
  by_cases h : Cert.Spec.eps < e
  · have hc : Ideal.cmp .ogt e Cert.Spec.eps = 1 := (cmp_ogt_iff _ _).mpr h
    rw [if_pos hc, if_pos hc, if_pos h]
  · have hc : ¬ Ideal.cmp .ogt e Cert.Spec.eps = 1 := fun hc => h ((cmp_ogt_iff _ _).mp hc)
    rw [if_neg hc, if_neg h]

theorem dist_chain (A B G : FVec Ideal S512x512 .f32) (j : S512x512.Idx) :
    select
        (cmpf .ogt
          (maximumf (subf (addf A B) (mulf (broadcast S512x512 (Scalar.ofBits .f32 0x40000000#32)) G))
            (broadcast S512x512 (Scalar.ofBits .f32 0x00000000#32)))
          (broadcast S512x512 (Scalar.ofBits .f32 0x2B8CBCCC#32)))
        (sqrt
          (select
            (cmpf .ogt
              (maximumf (subf (addf A B) (mulf (broadcast S512x512 (Scalar.ofBits .f32 0x40000000#32)) G))
                (broadcast S512x512 (Scalar.ofBits .f32 0x00000000#32)))
              (broadcast S512x512 (Scalar.ofBits .f32 0x2B8CBCCC#32)))
            (maximumf (subf (addf A B) (mulf (broadcast S512x512 (Scalar.ofBits .f32 0x40000000#32)) G))
              (broadcast S512x512 (Scalar.ofBits .f32 0x00000000#32)))
            (broadcast S512x512 (Scalar.ofBits .f32 0x3F800000#32))))
        (broadcast S512x512 (Scalar.ofBits .f32 0x00000000#32)) j
      = if Cert.Spec.eps < max (A j + B j - Cert.Spec.two * G j) 0
          then Ideal.sqrt (max (A j + B j - Cert.Spec.two * G j) 0) else 0 := by
  show Scalar.select
      (Ideal.cmp .ogt (max (A j + B j - Cert.Spec.two * G j) (Ideal.ofBits .f32 0x00000000#32)) Cert.Spec.eps)
      (Ideal.sqrt (Scalar.select
        (Ideal.cmp .ogt (max (A j + B j - Cert.Spec.two * G j) (Ideal.ofBits .f32 0x00000000#32)) Cert.Spec.eps)
        (max (A j + B j - Cert.Spec.two * G j) (Ideal.ofBits .f32 0x00000000#32)) (Ideal.ofBits .f32 0x3F800000#32)))
      (Ideal.ofBits .f32 0x00000000#32) = _
  rw [Ideal.ofBits_zero_f32]
  exact dist_select _ _

theorem pay12 (v37 v39 : Vec Ideal S512x92 .f32) (p q : Fin 512) :
    k0_pay12 v37 v39 (ix2 p q)
      = if Cert.Spec.eps < max ((∑ d : Fin 92, v37 (ix2 p d) * v37 (ix2 p d)) + (∑ d : Fin 92, v39 (ix2 q d) * v39 (ix2 q d))
              - Cert.Spec.two * ∑ d : Fin 92, v37 (ix2 p d) * v39 (ix2 q d)) 0
          then Ideal.sqrt (max ((∑ d : Fin 92, v37 (ix2 p d) * v37 (ix2 p d)) + (∑ d : Fin 92, v39 (ix2 q d) * v39 (ix2 q d))
              - Cert.Spec.two * ∑ d : Fin 92, v37 (ix2 p d) * v39 (ix2 q d)) 0)
          else 0 := by
  unfold k0_pay12
  rw [shapeCast_self, shapeCast_self]
  refine (dist_chain _ _ _ (ix2 p q)).trans ?_
  rw [sqRow_apply, sqCol_apply, gram_apply]

end Cert.Val

end
-- ==== Proof.Val.Pay.lean ====
/-
  The body's pure values read at one element.
-/
import proofs.«431328_j9835475108099_1_alg».proof.Proof.Val.PayA
import proofs.«431328_j9835475108099_1_alg».proof.Proof.Val.PayB
-- ==== Proof.Val.RowsC.lean ====
/-
  One grid point's masks, logits and distances are the row's families at the point's column block.
-/
import proofs.«431328_j9835475108099_1_alg».proof.Proof.Val.RowsA
import proofs.«431328_j9835475108099_1_alg».proof.Proof.Val.Pay

noncomputable section

namespace Cert.Val

open Cert.KernelIdeal Cert.KernelIdeal.Gen Idealize.ShloMosaic ValueIdx
open scoped BigOperators

theorem diag_iff (I J : ℕ) (hJ : J < 8) (p q : Fin 512) (r : Fin 4096) (hr : r.val = 512 * I + p.val) :
    512 * I + p.val = 512 * J + q.val ↔ r = (⟨512 * J + q.val, col_lt J hJ q⟩ : Fin 4096) :=
  ⟨fun h => Fin.ext (hr.trans h), fun h => hr.symm.trans (congrArg Fin.val h)⟩

theorem mask_point (lb : Cert.Spec.Lab) (i : grid0.Coords) (x2 : Vec Ideal S512x1 .i32) (x3 : Vec Ideal S1x512 .i32)
    (I J : ℕ) (hJ : J < 8) (p q : Fin 512) (r : Fin 4096)
    (hi0 : (i 0).val = I) (hi1 : (i 1).val = J) (hr : r.val = 512 * I + p.val)
    (h2 : x2 (ix2 p (0 : Fin 1)) = Cert.Spec.lab lb r)
    (h3 : x3 (ix2 (0 : Fin 1) q) = Cert.Spec.lab lb ⟨512 * J + q.val, col_lt J hJ q⟩) :
    k0_pay9 i x2 x3 (ix2 p q) = posB lb r J q := by
  rw [pay9, h2, h3, hi0, hi1]
  unfold posB Cert.Spec.pos
  rw [dif_pos hJ]
  exact if_congr (and_congr Iff.rfl (not_congr (diag_iff I J hJ p q r hr))) rfl rfl

theorem off_point (i : grid0.Coords) (I J : ℕ) (hJ : J < 8) (p q : Fin 512) (r : Fin 4096)
    (hi0 : (i 0).val = I) (hi1 : (i 1).val = J) (hr : r.val = 512 * I + p.val) :
    k0_pay10 (F := Ideal) i (ix2 p q) = offB r J q := by
  rw [pay10, hi0, hi1]
  unfold offB Cert.Spec.offd
  rw [dif_pos hJ]
  exact if_congr (diag_iff I J hJ p q r hr) rfl rfl

theorem logit_point (x : Cert.Spec.Feat) (v27 v30 : Vec Ideal S512x192 .f32) (J : ℕ) (hJ : J < 8) (p q : Fin 512)
    (r : Fin 4096) (h27 : ∀ d : Fin 192, v27 (ix2 p d) = Cert.Spec.head x r d)
    (h30 : ∀ d : Fin 192, v30 (ix2 q d) = Cert.Spec.head x ⟨512 * J + q.val, col_lt J hJ q⟩ d) :
    k0_pay11 v27 v30 (ix2 p q) = logitB x r J q := by
  rw [pay11]
  unfold logitB Cert.Spec.logit
  rw [dif_pos hJ]
  exact congrArg (· * Cert.Spec.invT) (Finset.sum_congr rfl fun d _ => by rw [h27, h30])

theorem dist_point (x : Cert.Spec.Feat) (v37 v39 : Vec Ideal S512x92 .f32) (J : ℕ) (hJ : J < 8) (p q : Fin 512)
    (r : Fin 4096) (h37 : ∀ d : Fin 92, v37 (ix2 p d) = Cert.Spec.tail x r d)
    (h39 : ∀ d : Fin 92, v39 (ix2 q d) = Cert.Spec.tail x ⟨512 * J + q.val, col_lt J hJ q⟩ d) :
    k0_pay12 v37 v39 (ix2 p q) = distB x r J q := by
  have e1 : ∑ d : Fin 92, v37 (ix2 p d) * v37 (ix2 p d) = Cert.Spec.sq x r :=
    Finset.sum_congr rfl fun d _ => by rw [h37]
  have e2 : ∑ d : Fin 92, v39 (ix2 q d) * v39 (ix2 q d) = Cert.Spec.sq x ⟨512 * J + q.val, col_lt J hJ q⟩ :=
    Finset.sum_congr rfl fun d _ => by rw [h39]
  have e3 : ∑ d : Fin 92, v37 (ix2 p d) * v39 (ix2 q d) = Cert.Spec.gram x r ⟨512 * J + q.val, col_lt J hJ q⟩ :=
    Finset.sum_congr rfl fun d _ => by rw [h37, h39]
  rw [pay12, e1, e2, e3]
  unfold distB
  rw [dif_pos hJ]
  rfl

end Cert.Val

end
-- ==== Proof.Val.Blocks.lean ====
/-
  The arrays the region reads and each window's block at a grid point, read at an index: row r of the stacked features is view
  r / 2048 of sample r % 2048; point t has row block t / 8 and column block t % 8.
-/
import proofs.«431328_j9835475108099_1_alg».proof.Proof.KI.Kit
import proofs.«431328_j9835475108099_1_alg».proof.Proof.Spec
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.Val

open Cert.KernelIdeal Cert.KernelIdeal.Gen Cert.KernelIdeal.Hand
open Idealize.ShloMosaic Idealize.ShloMosaic.TcCoe Idealize.SL.Sem Idealize.ShloMosaic.ValueIdx

variable (m : (ℓ : Loc nD τ sig) → Buf (Elt Ideal) ℓ) (c : Dev nD)

abbrev feat : Cert.Spec.Feat := m ((c.tc : Thread nD τ).loc main_arg0)

abbrev labs : Cert.Spec.Lab := m ((c.tc : Thread nD τ).loc main_arg1)

theorem V_v1_term : (V m c main_v1 : S4096x256.Idx → EReal) =
    shapeCast S4096x256 (transpose S2x2048x256 [1, 0, 2] (feat m c) transposes_S2048x2x256_S2x2048x256_1_0_2)
      shapeCasts_S2x2048x256_S4096x256 := by
  dsimp only [V, V0]
  simp only [hostOps0, List.flatten_cons, List.flatten_nil, List.append_nil]
  after_results
  rfl

abbrev tiled : S4096.Idx → BitVec 32 :=
  shapeCast S4096 (broadcastInDim S2x2048 ![0, 1] bcast_S1x2048_S2x2048_0_1
    (shapeCast S1x2048 (labs m c) shapeCasts_S2048_S1x2048)) shapeCasts_S2x2048_S4096

theorem V_v5_term : (V m c main_v5 : S4096x1.Idx → BitVec 32) = shapeCast S4096x1 (tiled m c) shapeCasts_S4096_S4096x1 := by
  dsimp only [V, V0]
  simp only [hostOps0, List.flatten_cons, List.flatten_nil, List.append_nil]
  after_results
  rfl

theorem V_v6_term : (V m c main_v6 : S1x4096.Idx → BitVec 32) = shapeCast S1x4096 (tiled m c) shapeCasts_S4096_S1x4096 := by
  dsimp only [V, V0]
  simp only [hostOps0, List.flatten_cons, List.flatten_nil, List.append_nil]
  after_results
  rfl

theorem V_arg0 : V m c main_arg0 = m ((c.tc : Thread nD τ).loc main_arg0) := by
  dsimp only [V, V0]
  simp only [hostOps0, List.flatten_cons, List.flatten_nil, List.append_nil]
  after_results

theorem V_arg1 : V m c main_arg1 = m ((c.tc : Thread nD τ).loc main_arg1) := by
  dsimp only [V, V0]
  simp only [hostOps0, List.flatten_cons, List.flatten_nil, List.append_nil]
  after_results

theorem V_v1 (r : Fin 4096) (d : Fin 256) :
    (V m c main_v1 : S4096x256.Idx → EReal) (ix2 r d) = Cert.Spec.cf (feat m c) r d := by
  rw [V_v1_term]
  have hr := r.isLt
  refine (shapeCast_apply _ _ (ix2 r d) (ix3 (Cert.Spec.rowV r) (Cert.Spec.rowB r) d) ?_).trans ?_
  · rw [Shape.rowMajor_val_three, Shape.rowMajor_val_two]
    show (r.val / 2048 * 2048 + r.val % 2048) * 256 + d.val = r.val * 256 + d.val
    omega
  · exact transpose_apply _ _ _ (ix3 (Cert.Spec.rowV r) (Cert.Spec.rowB r) d) (ix3 (Cert.Spec.rowB r) (Cert.Spec.rowV r) d)
      fun b => match b with | ⟨0, _⟩ => rfl | ⟨1, _⟩ => rfl | ⟨2, _⟩ => rfl

theorem tiled_apply (r : Fin 4096) : tiled m c (ix1 r) = Cert.Spec.lab (labs m c) r := by
  have hr := r.isLt
  refine (shapeCast_apply _ _ (ix1 r) (ix2 (Cert.Spec.rowV r) (Cert.Spec.rowB r)) ?_).trans ?_
  · rw [Shape.rowMajor_val_two, Shape.rowMajor_val_one]
    show r.val / 2048 * 2048 + r.val % 2048 = r.val
    omega
  refine (broadcastInDim_apply _ _ _ (ix2 (Cert.Spec.rowV r) (Cert.Spec.rowB r)) (ix2 (0 : Fin 1) (Cert.Spec.rowB r))
    fun a => match a with | ⟨0, _⟩ => rfl | ⟨1, _⟩ => rfl).trans ?_
  exact shapeCast_a_1a_apply _ _ (0 : Fin 1) (Cert.Spec.rowB r)

theorem V_v5 (r : Fin 4096) (u : Fin 1) :
    (V m c main_v5 : S4096x1.Idx → BitVec 32) (ix2 r u) = Cert.Spec.lab (labs m c) r := by
  rw [V_v5_term]
  have hu := u.isLt
  refine (shapeCast_apply _ _ (ix2 r u) (ix1 r) ?_).trans (tiled_apply m c r)
  rw [Shape.rowMajor_val_two, Shape.rowMajor_val_one]
  show r.val = r.val * 1 + u.val
  omega

theorem V_v6 (u : Fin 1) (r : Fin 4096) :
    (V m c main_v6 : S1x4096.Idx → BitVec 32) (ix2 u r) = Cert.Spec.lab (labs m c) r := by
  rw [V_v6_term]
  exact (shapeCast_a_1a_apply _ _ u r).trans (tiled_apply m c r)

theorem coords0 : ∀ t : Fin cfg0.N, (grid0.coords t 0).val = t.val / 8 :=
  (by decide +kernel : ∀ t : Fin grid0.N, (grid0.coords t 0).val = t.val / 8)

theorem coords1 : ∀ t : Fin cfg0.N, (grid0.coords t 1).val = t.val % 8 :=
  (by decide +kernel : ∀ t : Fin grid0.N, (grid0.coords t 1).val = t.val % 8)

theorem index0 : ∀ t : Fin cfg0.N, win0_0.index t (0 : Fin 2) = t.val / 8 ∧ win0_0.index t (1 : Fin 2) = 0 :=
  (by decide +kernel : ∀ t : Fin grid0.N, _)
theorem index1 : ∀ t : Fin cfg0.N, win0_1.index t (0 : Fin 2) = t.val % 8 ∧ win0_1.index t (1 : Fin 2) = 0 :=
  (by decide +kernel : ∀ t : Fin grid0.N, _)
theorem index2 : ∀ t : Fin cfg0.N, win0_2.index t (0 : Fin 2) = t.val / 8 ∧ win0_2.index t (1 : Fin 2) = 0 :=
  (by decide +kernel : ∀ t : Fin grid0.N, _)
theorem index3 : ∀ t : Fin cfg0.N, win0_3.index t (0 : Fin 2) = 0 ∧ win0_3.index t (1 : Fin 2) = t.val % 8 :=
  (by decide +kernel : ∀ t : Fin grid0.N, _)

abbrev blk0 (t : Fin cfg0.N) : Vec Ideal S512x256 .f32 := iblk m c 0 t

abbrev blk1 (t : Fin cfg0.N) : Vec Ideal S512x256 .f32 := iblk m c 1 t

abbrev blk2 (t : Fin cfg0.N) : Vec Ideal S512x1 .i32 := iblk m c 2 t

abbrev blk3 (t : Fin cfg0.N) : Vec Ideal S1x512 .i32 := iblk m c 3 t

theorem rowBlock_lt (t : Fin cfg0.N) (p : Fin 512) : 512 * (t.val / 8) + p.val < 4096 := by
  have ht : t.val < 64 := lt_of_lt_of_eq t.isLt N_0
  have hp := p.isLt
  omega
theorem colBlock_lt (t : Fin cfg0.N) (q : Fin 512) : 512 * (t.val % 8) + q.val < 4096 := by
  have hq := q.isLt
  omega

theorem blk0_apply (t : Fin cfg0.N) (p : Fin 512) (d : Fin 256) (r : Fin 4096) (hr : r.val = 512 * (t.val / 8) + p.val) :
    blk0 m c t (ix2 p d) = Cert.Spec.cf (feat m c) r d := by
  rw [← V_v1 m c r d]
  unfold blk0 iblk
  rw [View.read_apply]
  show V m c main_v1 _ = V m c main_v1 _
  congr 1
  funext a
  apply Fin.ext
  obtain ⟨e0, e1⟩ := index0 t
  match a with
  | ⟨0, _⟩ => show win0_0.index t (0 : Fin 2) * 512 + 1 * p.val = r.val; rw [e0, hr]; omega
  | ⟨1, _⟩ => show win0_0.index t (1 : Fin 2) * 256 + 1 * d.val = d.val; rw [e1]; omega

theorem blk1_apply (t : Fin cfg0.N) (q : Fin 512) (d : Fin 256) (r : Fin 4096) (hr : r.val = 512 * (t.val % 8) + q.val) :
    blk1 m c t (ix2 q d) = Cert.Spec.cf (feat m c) r d := by
  rw [← V_v1 m c r d]
  unfold blk1 iblk
  rw [View.read_apply]
  show V m c main_v1 _ = V m c main_v1 _
  congr 1
  funext a
  apply Fin.ext
  obtain ⟨e0, e1⟩ := index1 t
  match a with
  | ⟨0, _⟩ => show win0_1.index t (0 : Fin 2) * 512 + 1 * q.val = r.val; rw [e0, hr]; omega
  | ⟨1, _⟩ => show win0_1.index t (1 : Fin 2) * 256 + 1 * d.val = d.val; rw [e1]; omega

theorem blk2_apply (t : Fin cfg0.N) (p : Fin 512) (u : Fin 1) (r : Fin 4096) (hr : r.val = 512 * (t.val / 8) + p.val) :
    blk2 m c t (ix2 p u) = Cert.Spec.lab (labs m c) r := by
  rw [← V_v5 m c r u]
  unfold blk2 iblk
  rw [View.read_apply]
  show V m c main_v5 _ = V m c main_v5 _
  congr 1
  funext a
  apply Fin.ext
  obtain ⟨e0, e1⟩ := index2 t
  match a with
  | ⟨0, _⟩ => show win0_2.index t (0 : Fin 2) * 512 + 1 * p.val = r.val; rw [e0, hr]; omega
  | ⟨1, _⟩ => show win0_2.index t (1 : Fin 2) * 1 + 1 * u.val = u.val; rw [e1]; omega

theorem blk3_apply (t : Fin cfg0.N) (u : Fin 1) (q : Fin 512) (r : Fin 4096) (hr : r.val = 512 * (t.val % 8) + q.val) :
    blk3 m c t (ix2 u q) = Cert.Spec.lab (labs m c) r := by
  rw [← V_v6 m c u r]
  unfold blk3 iblk
  rw [View.read_apply]
  show V m c main_v6 _ = V m c main_v6 _
  congr 1
  funext a
  apply Fin.ext
  obtain ⟨e0, e1⟩ := index3 t
  match a with
  | ⟨0, _⟩ => show win0_3.index t (0 : Fin 2) * 1 + 1 * u.val = u.val; rw [e0]; omega
  | ⟨1, _⟩ => show win0_3.index t (1 : Fin 2) * 512 + 1 * q.val = r.val; rw [e1, hr]; omega

theorem blk0_eq (t : Fin cfg0.N) (p : Fin 512) (d : Fin 256) :
    blk0 m c t (ix2 p d) = Cert.Spec.cf (feat m c) ⟨512 * (t.val / 8) + p.val, rowBlock_lt t p⟩ d :=
  blk0_apply m c t p d _ rfl
theorem blk1_eq (t : Fin cfg0.N) (q : Fin 512) (d : Fin 256) :
    blk1 m c t (ix2 q d) = Cert.Spec.cf (feat m c) ⟨512 * (t.val % 8) + q.val, colBlock_lt t q⟩ d :=
  blk1_apply m c t q d _ rfl
theorem blk2_eq (t : Fin cfg0.N) (p : Fin 512) (u : Fin 1) :
    blk2 m c t (ix2 p u) = Cert.Spec.lab (labs m c) ⟨512 * (t.val / 8) + p.val, rowBlock_lt t p⟩ :=
  blk2_apply m c t p u _ rfl
theorem blk3_eq (t : Fin cfg0.N) (u : Fin 1) (q : Fin 512) :
    blk3 m c t (ix2 u q) = Cert.Spec.lab (labs m c) ⟨512 * (t.val % 8) + q.val, colBlock_lt t q⟩ :=
  blk3_apply m c t u q _ rfl

theorem iblk0_eq (t : Fin cfg0.N) (p : Fin 512) (d : Fin 256) :
    (iblk m c 0 t : Vec Ideal S512x256 .f32) (ix2 p d) = Cert.Spec.cf (feat m c) ⟨512 * (t.val / 8) + p.val, rowBlock_lt t p⟩ d :=
  blk0_eq m c t p d
theorem iblk1_eq (t : Fin cfg0.N) (q : Fin 512) (d : Fin 256) :
    (iblk m c 1 t : Vec Ideal S512x256 .f32) (ix2 q d) = Cert.Spec.cf (feat m c) ⟨512 * (t.val % 8) + q.val, colBlock_lt t q⟩ d :=
  blk1_eq m c t q d
theorem iblk2_eq (t : Fin cfg0.N) (p : Fin 512) (u : Fin 1) :
    (iblk m c 2 t : Vec Ideal S512x1 .i32) (ix2 p u) = Cert.Spec.lab (labs m c) ⟨512 * (t.val / 8) + p.val, rowBlock_lt t p⟩ :=
  blk2_eq m c t p u
theorem iblk3_eq (t : Fin cfg0.N) (u : Fin 1) (q : Fin 512) :
    (iblk m c 3 t : Vec Ideal S1x512 .i32) (ix2 u q) = Cert.Spec.lab (labs m c) ⟨512 * (t.val % 8) + q.val, colBlock_lt t q⟩ :=
  blk3_eq m c t u q

end Cert.Val

end
-- ==== Proof.KI.Pieces.lean ====
/-
  What each case leaves in the seven buffers, as values over the body's payloads: every buffer's last store is whole, so the
  buffer holds that store's payload.
-/
import proofs.«431328_j9835475108099_1_alg».proof.Proof.KI.Frame
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- A whole-buffer access has offsets (0, 0). -/
theorem pieces_hz : (![0, 0] : Fin 2 → Nat) = fun _ => 0 := funext fun a => by fin_cases a <;> rfl

/-- Columns 0..191 of a feature block (the logits use these), -/
def head192 (x : Vec F S512x256 .f32) : Vec F S512x192 .f32 :=
  View.ld x (Rect.unit (s := S512x256) ![0, 0] S512x192.size inb_S512x256_S512x192_0_0)

/-- and columns 164..255 (the distances use these). -/
def tail92 (x : Vec F S512x256 .f32) : Vec F S512x92 .f32 :=
  View.ld x (Rect.unit (s := S512x256) ![0, 164] S512x92.size inb_S512x256_S512x92_0_164)

theorem head192_apply (x : Vec F S512x256 .f32) (p : Fin 512) (d : Fin 192) :
    head192 x (ix2 p d) = x (ix2 p ⟨d.val, by omega⟩) := by
  show x _ = x _
  congr 1
  funext a
  apply Fin.ext
  match a with
  | ⟨0, _⟩ => show 0 + 1 * p.val = p.val; omega
  | ⟨1, _⟩ => show 0 + 1 * d.val = d.val; omega

theorem tail92_apply (x : Vec F S512x256 .f32) (p : Fin 512) (d : Fin 92) :
    tail92 x (ix2 p d) = x (ix2 p ⟨164 + d.val, by omega⟩) := by
  show x _ = x _
  congr 1
  funext a
  apply Fin.ext
  match a with
  | ⟨0, _⟩ => show 0 + 1 * p.val = p.val; omega
  | ⟨1, _⟩ => show 164 + 1 * d.val = 164 + d.val; omega

/-- The block's four ingredients at grid point i: the positive-pair mask (labels agree, off the global diagonal), the
    off-diagonal mask, the logits and the distances. -/
def maskOf (i : grid0.Coords) (x2 : Vec F S512x1 .i32) (x3 : Vec F S1x512 .i32) : FVec F S512x512 .f32 := k0_pay9 i x2 x3
def offOf (i : grid0.Coords) : FVec F S512x512 .f32 := k0_pay10 (F := F) i
def logitOf (x0 x1 : Vec F S512x256 .f32) : FVec F S512x512 .f32 := k0_pay11 (head192 x0) (head192 x1)
def distOf (x0 x1 : Vec F S512x256 .f32) : FVec F S512x512 .f32 := k0_pay12 (tail92 x0) (tail92 x1)

/-- The five running totals (pair count, masked sums of logits and of distances, running maximum, running sum of
    exponentials) updated with the block at grid point i, over xs. -/
def upd (i : grid0.Coords) (x0 x1 : Vec F S512x256 .f32) (x2 : Vec F S512x1 .i32) (x3 : Vec F S1x512 .i32) (xs : Vec F S512x1 .f32 × Vec F S512x1 .f32 × Vec F S512x1 .f32 × Vec F S512x1 .f32 × Vec F S512x1 .f32) : Vec F S512x1 .f32 × Vec F S512x1 .f32 × Vec F S512x1 .f32 × Vec F S512x1 .f32 × Vec F S512x1 .f32 :=
  (k0_pay13 (maskOf i x2 x3) xs.1, k0_pay15 xs.2.1 (k0_pay14 (maskOf i x2 x3) (logitOf x0 x1)), k0_pay16 (maskOf i x2 x3) (distOf x0 x1) xs.2.2.1,
    k0_pay19 (logitOf x0 x1) xs.2.2.2.1, k0_pay18 (offOf i) (logitOf x0 x1) xs.2.2.2.1 xs.2.2.2.1 xs.2.2.2.2)

/-- The values the totals are reset to in the first column block. -/
def reset : Vec F S512x1 .f32 × Vec F S512x1 .f32 × Vec F S512x1 .f32 × Vec F S512x1 .f32 × Vec F S512x1 .f32 := (k0_pay3, k0_pay4, k0_pay5, k0_pay6, k0_pay7)

/-- The two outputs, written from the totals u. -/
def fin4 (u : Vec F S512x1 .f32 × Vec F S512x1 .f32 × Vec F S512x1 .f32 × Vec F S512x1 .f32 × Vec F S512x1 .f32) : Vec F S512x1 .f32 := k0_pay1 u.2.2.2.1 u.2.2.2.2 u.2.1 u.1 u.1
def fin5 (u : Vec F S512x1 .f32 × Vec F S512x1 .f32 × Vec F S512x1 .f32 × Vec F S512x1 .f32 × Vec F S512x1 .f32) : Vec F S512x1 .f32 := k0_pay2 u.2.2.1 u.1

variable (c : Dev nD) (i : grid0.Coords) (b : Bufs) (x0 x1 : Vec F S512x256 .f32) (x2 : Vec F S512x1 .i32) (x3 : Vec F S1x512 .i32)

/-- In the first column block the totals are left at their update over the reset values: each buffer's last store is
    whole, so its payload is what the buffer holds. -/
theorem outs_A (hc0 : cond0_0 i) (hc1 : ¬cond0_1 i) :
    outsA c i b hc0 hc1 x0 x1 x2 x3 = (idle0_4, idle0_5, upd i x0 x1 x2 x3 reset) := by
  unfold outsA runA kernelRun0_A upd reset
  dsimp only
  sl_unfold_words
  simp only [View.canon_cons_unit_zero (S := S512x1) pieces_hz, View.readAt_eq_ld, b.h2.read_unread, b.h3.read_unread, b.h4.read_unread, b.h5.read_unread, b.h8.read_unread, b.h9.read_unread, b.h10.read_unread, b.h11.read_unread, b.h12.read_unread, View.ld_unit_zero (S := S512x1) pieces_hz, View.ld_unit_zero (S := S1x512) pieces_hz, View.readCov_unit_zero (S := S512x1) _ pieces_hz, shapeCast_self]
  rfl

/-- Elsewhere they are left at their update over what they held; -/
theorem outs_B (hc0 : ¬cond0_0 i) (hc1 : ¬cond0_1 i) (xs : Vec F S512x1 .f32 × Vec F S512x1 .f32 × Vec F S512x1 .f32 × Vec F S512x1 .f32 × Vec F S512x1 .f32) :
    outsB c i b hc0 hc1 x0 x1 x2 x3 xs = (idle0_4, idle0_5, upd i x0 x1 x2 x3 xs) := by
  unfold outsB runB kernelRun0_B upd
  dsimp only
  sl_unfold_words
  simp only [View.canon_cons_unit_zero (S := S512x1) pieces_hz, View.readAt_eq_ld, b.h2.read_unread, b.h3.read_unread, b.h4.read_unread, b.h5.read_unread, b.h8.read_unread, b.h9.read_unread, b.h10.read_unread, b.h11.read_unread, b.h12.read_unread, View.ld_unit_zero (S := S512x1) pieces_hz, View.ld_unit_zero (S := S1x512) pieces_hz, View.readCov_unit_zero (S := S512x1) _ pieces_hz, shapeCast_self]
  rfl

/-- and in the last column block the two outputs are written from the updated totals. -/
theorem outs_C (hc0 : ¬cond0_0 i) (hc1 : cond0_1 i) (xs : Vec F S512x1 .f32 × Vec F S512x1 .f32 × Vec F S512x1 .f32 × Vec F S512x1 .f32 × Vec F S512x1 .f32) :
    outsC c i b hc0 hc1 x0 x1 x2 x3 xs = (fin4 (upd i x0 x1 x2 x3 xs), fin5 (upd i x0 x1 x2 x3 xs), upd i x0 x1 x2 x3 xs) := by
  unfold outsC runC kernelRun0_C fin4 fin5 upd
  dsimp only
  sl_unfold_words
  simp only [View.canon_cons_unit_zero (S := S512x1) pieces_hz, View.readAt_eq_ld, b.h2.read_unread, b.h3.read_unread, b.h4.read_unread, b.h5.read_unread, b.h8.read_unread, b.h9.read_unread, b.h10.read_unread, b.h11.read_unread, b.h12.read_unread, View.ld_unit_zero (S := S512x1) pieces_hz, View.ld_unit_zero (S := S1x512) pieces_hz, View.readCov_unit_zero (S := S512x1) _ pieces_hz, shapeCast_self]
  rfl

end Cert.KernelIdeal.Hand

end
-- ==== Proof.Val.RowsD.lean ====
/-
  The same at the point's own input blocks.
-/
import proofs.«431328_j9835475108099_1_alg».proof.Proof.Val.RowsC
import proofs.«431328_j9835475108099_1_alg».proof.Proof.Val.Blocks
import proofs.«431328_j9835475108099_1_alg».proof.Proof.KI.Pieces

set_option maxRecDepth 16384

noncomputable section

namespace Cert.Val

open Cert.KernelIdeal Cert.KernelIdeal.Gen Cert.KernelIdeal.Hand
open Idealize.ShloMosaic Idealize.ShloMosaic.TcCoe Idealize.SL.Sem Idealize.ShloMosaic.ValueIdx
open Cert.Online
open scoped BigOperators

variable (m : (ℓ : Loc nD τ sig) → Buf (Elt Ideal) ℓ) (c : Dev nD)

theorem colBlk_lt (t : Fin cfg0.N) : t.val % 8 < 8 := Nat.mod_lt _ (by norm_num)

abbrev maskAt (t : Fin cfg0.N) : FVec Ideal S512x512 .f32 := maskOf (grid0.coords t) (blk2 m c t) (blk3 m c t)

abbrev offAt (t : Fin cfg0.N) : FVec Ideal S512x512 .f32 := offOf (F := Ideal) (grid0.coords t)

abbrev logitAt (t : Fin cfg0.N) : FVec Ideal S512x512 .f32 := logitOf (blk0 m c t) (blk1 m c t)

abbrev distAt (t : Fin cfg0.N) : FVec Ideal S512x512 .f32 := distOf (blk0 m c t) (blk1 m c t)

theorem mask_at (t : Fin cfg0.N) (p q : Fin 512) (r : Fin 4096) (hr : r.val = 512 * (t.val / 8) + p.val) :
    maskAt m c t (ix2 p q) = posB (labs m c) r (t.val % 8) q :=
  mask_point (labs m c) (grid0.coords t) (blk2 m c t) (blk3 m c t) (t.val / 8) (t.val % 8) (colBlk_lt t) p q r
    (coords0 t) (coords1 t) hr (blk2_apply m c t p 0 r hr) (blk3_eq m c t 0 q)

theorem off_at (t : Fin cfg0.N) (p q : Fin 512) (r : Fin 4096) (hr : r.val = 512 * (t.val / 8) + p.val) :
    offAt t (ix2 p q) = offB r (t.val % 8) q :=
  off_point (grid0.coords t) (t.val / 8) (t.val % 8) (colBlk_lt t) p q r (coords0 t) (coords1 t) hr

theorem logit_at (t : Fin cfg0.N) (p q : Fin 512) (r : Fin 4096) (hr : r.val = 512 * (t.val / 8) + p.val) :
    logitAt m c t (ix2 p q) = logitB (feat m c) r (t.val % 8) q :=
  logit_point (feat m c) (head192 (blk0 m c t)) (head192 (blk1 m c t)) (t.val % 8) (colBlk_lt t) p q r
    (fun d => (head192_apply (blk0 m c t) p d).trans (blk0_apply m c t p _ r hr))
    (fun d => (head192_apply (blk1 m c t) q d).trans (blk1_eq m c t q _))

theorem dist_at (t : Fin cfg0.N) (p q : Fin 512) (r : Fin 4096) (hr : r.val = 512 * (t.val / 8) + p.val) :
    distAt m c t (ix2 p q) = distB (feat m c) r (t.val % 8) q :=
  dist_point (feat m c) (tail92 (blk0 m c t)) (tail92 (blk1 m c t)) (t.val % 8) (colBlk_lt t) p q r
    (fun d => (tail92_apply (blk0 m c t) p d).trans (blk0_apply m c t p _ r hr))
    (fun d => (tail92_apply (blk1 m c t) q d).trans (blk1_eq m c t q _))

end Cert.Val

end
-- ==== Proof.Val.RowsE.lean ====
/-
  What the seven buffers hold after a grid point, over the body's values: the totals are ONE update function of what they held
  (of the reset values in the first column block), and the outputs are functions of the point's own totals.
-/
import proofs.«431328_j9835475108099_1_alg».proof.Proof.Val.RowsD

set_option maxRecDepth 16384

noncomputable section

namespace Cert.Val

open Cert.KernelIdeal Cert.KernelIdeal.Gen Cert.KernelIdeal.Hand
open Idealize.ShloMosaic Idealize.ShloMosaic.TcCoe Idealize.SL.Sem Idealize.ShloMosaic.ValueIdx
open Cert.Online
open scoped BigOperators

variable (m : (ℓ : Loc nD τ sig) → Buf (Elt Ideal) ℓ) (c : Dev nD)

/-- The totals' update at grid point t, made from the point's own input blocks. -/
abbrev updAt (t : Fin cfg0.N) (xs : Vec Ideal S512x1 .f32 × Vec Ideal S512x1 .f32 × Vec Ideal S512x1 .f32 × Vec Ideal S512x1 .f32 × Vec Ideal S512x1 .f32) : Vec Ideal S512x1 .f32 × Vec Ideal S512x1 .f32 × Vec Ideal S512x1 .f32 × Vec Ideal S512x1 .f32 × Vec Ideal S512x1 .f32 :=
  upd (grid0.coords t) (blk0 m c t) (blk1 m c t) (blk2 m c t) (blk3 m c t) xs

/-- After a point whose column block is the first the five totals are the update of the reset values; -/
theorem comp_A (t : Fin cfg0.N) (h0 : t.val % 8 = 0) : (outsAt0 m c t.val t.isLt).2.2 = updAt m c t reset := by
  rw [outsAt0_A m c t h0]
  exact congrArg (·.2.2) (outs_A (F := Ideal) c (grid0.coords t) (bufsAt t) (blk0 m c t) (blk1 m c t) (blk2 m c t) (blk3 m c t) _ _)

/-- after any other point, the update of what the point before left; -/
theorem comp_step (t : Fin cfg0.N) (h0 : ¬t.val % 8 = 0) : (outsAt0 m c t.val t.isLt).2.2 = updAt m c t (prev0 m c t) := by
  by_cases h1 : t.val % 8 = 7
  · rw [outsAt0_C m c t h1]
    exact congrArg (·.2.2) (outs_C (F := Ideal) c (grid0.coords t) (bufsAt t) (blk0 m c t) (blk1 m c t) (blk2 m c t) (blk3 m c t) _ _ _)
  · rw [outsAt0_B m c t h0 h1]
    exact congrArg (·.2.2) (outs_B (F := Ideal) c (grid0.coords t) (bufsAt t) (blk0 m c t) (blk1 m c t) (blk2 m c t) (blk3 m c t) _ _ _)

/-- and where the column block is the last the two outputs are written from the point's own totals. -/
theorem comp_out (t : Fin cfg0.N) (h1 : t.val % 8 = 7) :
    (outsAt0 m c t.val t.isLt).1 = fin4 (outsAt0 m c t.val t.isLt).2.2 ∧ (outsAt0 m c t.val t.isLt).2.1 = fin5 (outsAt0 m c t.val t.isLt).2.2 := by
  rw [outsAt0_C m c t h1, atC, outs_C]
  exact ⟨rfl, rfl⟩

end Cert.Val

end
-- ==== Proof.Val.RowsF.lean ====
/-
  The row invariant: after every grid point the five running totals are those of the point's rows over the column blocks so far.
-/
import proofs.«431328_j9835475108099_1_alg».proof.Proof.Val.RowsE

set_option maxRecDepth 16384

noncomputable section

namespace Cert.Val

open Cert.KernelIdeal Cert.KernelIdeal.Gen Cert.KernelIdeal.Hand
open Idealize.ShloMosaic Idealize.ShloMosaic.TcCoe Idealize.SL.Sem Idealize.ShloMosaic.ValueIdx
open Cert.Online
open scoped BigOperators

variable (m : (ℓ : Loc nD τ sig) → Buf (Elt Ideal) ℓ) (c : Dev nD)

/-- The five running totals are, at row p, the totals of row r of the 4096 over its first k column blocks: the number of
    positive pairs, the sums of the logits and of the distances over them, the largest logit, and the sum of
    exponentials relative to it. -/
structure TotalsAre (S : Vec Ideal S512x1 .f32 × Vec Ideal S512x1 .f32 × Vec Ideal S512x1 .f32 × Vec Ideal S512x1 .f32 × Vec Ideal S512x1 .f32) (p : Fin 512) (r : Fin 4096) (k : ℕ) : Prop where
  cnt : S.1 (ix2 p (0 : Fin 1)) = acc (posB (labs m c) r) k
  lgt : S.2.1 (ix2 p (0 : Fin 1)) = acc (fun J q => posB (labs m c) r J q * logitB (feat m c) r J q) k
  dst : S.2.2.1 (ix2 p (0 : Fin 1)) = acc (fun J q => posB (labs m c) r J q * distB (feat m c) r J q) k
  mxm : S.2.2.2.1 (ix2 p (0 : Fin 1)) = mx (logitB (feat m c) r) k
  sme : S.2.2.2.2 (ix2 p (0 : Fin 1)) = lsum (logitB (feat m c) r) (offB r) k

theorem TotalsAre.of_eq {S : Vec Ideal S512x1 .f32 × Vec Ideal S512x1 .f32 × Vec Ideal S512x1 .f32 × Vec Ideal S512x1 .f32 × Vec Ideal S512x1 .f32} {p : Fin 512} {r : Fin 4096} {k k' : ℕ} (h : TotalsAre m c S p r k) (e : k = k') :
    TotalsAre m c S p r k' :=
  e ▸ h

/-- The reset values (0, 0, 0, -∞, 0) are the totals after no block. -/
theorem totals_reset (p : Fin 512) (r : Fin 4096) : TotalsAre m c reset p r 0 := ⟨pay3 p, pay4 p, pay5 p, pay6 p, pay7 p⟩

/-- One update: point t has row block t / 8 and column block J = t % 8, so the update of row r's totals over its first J
    column blocks with the point's block is its totals over J + 1. -/
theorem totals_step (t : Fin cfg0.N) (xs : Vec Ideal S512x1 .f32 × Vec Ideal S512x1 .f32 × Vec Ideal S512x1 .f32 × Vec Ideal S512x1 .f32 × Vec Ideal S512x1 .f32) (p : Fin 512) (r : Fin 4096) (hr : r.val = 512 * (t.val / 8) + p.val)
    (hp : TotalsAre m c xs p r (t.val % 8)) : TotalsAre m c (updAt m c t xs) p r (t.val % 8 + 1) :=
  ⟨cnt_step (posB (labs m c) r) (t.val % 8) (maskAt m c t) xs.1 p (fun q => mask_at m c t p q r hr) hp.cnt,
    logit_step (posB (labs m c) r) (logitB (feat m c) r) (t.val % 8) (maskAt m c t) (logitAt m c t) xs.2.1 p
      (fun q => mask_at m c t p q r hr) (fun q => logit_at m c t p q r hr) hp.lgt,
    dist_step (posB (labs m c) r) (distB (feat m c) r) (t.val % 8) (maskAt m c t) (distAt m c t) xs.2.2.1 p
      (fun q => mask_at m c t p q r hr) (fun q => dist_at m c t p q r hr) hp.dst,
    mx_step (logitB (feat m c) r) (t.val % 8) (logitAt m c t) xs.2.2.2.1 p (fun q => logit_at m c t p q r hr) hp.mxm,
    lsum_step (logitB (feat m c) r) (offB r) (t.val % 8) (offAt t) (logitAt m c t) xs.2.2.2.1 xs.2.2.2.2 p
      (fun q => off_at t p q r hr) (fun q => logit_at m c t p q r hr) hp.mxm hp.sme⟩

/-- After every point the totals are those of the point's rows over the column blocks so far: by induction on the point,
    the first column block starting from the reset values and every other from the point before, which has the same row
    block and the column block before. -/
theorem totals_all : ∀ (n : ℕ) (t : Fin cfg0.N), t.val = n → ∀ (p : Fin 512) (r : Fin 4096),
    r.val = 512 * (t.val / 8) + p.val → TotalsAre m c (outsAt0 m c t.val t.isLt).2.2 p r (t.val % 8 + 1) := by
  intro n
  induction n using Nat.strong_induction_on with
  | _ n ih =>
    intro t ht p r hr
    by_cases h0 : t.val % 8 = 0
    · rw [comp_A m c t h0]
      exact totals_step m c t reset p r hr (TotalsAre.of_eq m c (totals_reset m c p r) h0.symm)
    · have hlt : t.val - 1 < cfg0.N := Nat.lt_of_le_of_lt (Nat.sub_le _ _) t.isLt
      rw [comp_step m c t h0]
      exact totals_step m c t _ p r hr
        (TotalsAre.of_eq m c (ih (t.val - 1) (by omega) ⟨t.val - 1, hlt⟩ rfl p r (by show r.val = 512 * ((t.val - 1) / 8) + p.val; omega))
          (by show (t.val - 1) % 8 + 1 = t.val % 8; omega))

theorem totals_at (t : Fin cfg0.N) (p : Fin 512) :
    TotalsAre m c (outsAt0 m c t.val t.isLt).2.2 p ⟨512 * (t.val / 8) + p.val, rowBlock_lt t p⟩ (t.val % 8 + 1) :=
  totals_all m c t.val t rfl p ⟨512 * (t.val / 8) + p.val, rowBlock_lt t p⟩ rfl

end Cert.Val

end
-- ==== Proof.Val.RowsB.lean ====
/-
  After all 8 column blocks the totals are the row's quantities, and the two written values are the row's mean log-probability and
  mean distance (the features being finite, a logit is a real and the sum of exponentials is a positive real).
-/
import proofs.«431328_j9835475108099_1_alg».proof.Proof.Val.RowsA

noncomputable section

namespace Cert.Val

open Cert.KernelIdeal Cert.KernelIdeal.Gen Idealize.ShloMosaic ValueIdx
open Cert.Online
open scoped BigOperators

variable (x : Cert.Spec.Feat) (lb : Cert.Spec.Lab) (r : Fin 4096)

theorem acc_posB : acc (posB lb r) 8 = ∑ k : Fin 4096, Cert.Spec.pos lb r k := by
  rw [acc_eq]
  exact Finset.sum_congr rfl fun k _ => flat_posB lb r k

theorem acc_posLogitB :
    acc (fun J q => posB lb r J q * logitB x r J q) 8 = ∑ k : Fin 4096, Cert.Spec.pos lb r k * Cert.Spec.logit x r k := by
  rw [acc_eq]
  refine Finset.sum_congr rfl fun k _ => ?_
  show flat (posB lb r) k * flat (logitB x r) k = _
  rw [flat_posB, flat_logitB]

theorem acc_posDistB :
    acc (fun J q => posB lb r J q * distB x r J q) 8 = ∑ k : Fin 4096, Cert.Spec.pos lb r k * Cert.Spec.dist x r k := by
  rw [acc_eq]
  refine Finset.sum_congr rfl fun k _ => ?_
  show flat (posB lb r) k * flat (distB x r) k = _
  rw [flat_posB, flat_distB]

theorem mx_logitB : mx (logitB x r) 8 = Cert.Spec.rowMax x r := by
  rw [mx_eq]
  exact congrArg Finset.univ.sup (funext fun k => flat_logitB x r k)

theorem pos01 (k : Fin 4096) : Cert.Spec.pos lb r k = 0 ∨ Cert.Spec.pos lb r k = 1 := by
  unfold Cert.Spec.pos
  split
  · exact Or.inr rfl
  · exact Or.inl rfl

theorem offd01 (k : Fin 4096) : Cert.Spec.offd r k = 0 ∨ Cert.Spec.offd r k = 1 := by
  unfold Cert.Spec.offd
  split
  · exact Or.inl rfl
  · exact Or.inr rfl

theorem offB01 (J : ℕ) (q : Fin 512) : offB r J q = 0 ∨ offB r J q = 1 := by
  unfold offB
  split
  · exact offd01 r _
  · exact Or.inl rfl

section Finite
variable (hfin : ∀ j, ∃ v : ℝ, x j = (v : EReal))
include hfin

theorem cf_real (d : Fin 256) : ∃ v : ℝ, Cert.Spec.cf x r d = (v : EReal) := hfin _

theorem head_real (d : Fin 192) : ∃ v : ℝ, Cert.Spec.head x r d = (v : EReal) := cf_real x r hfin _

theorem logit_real (k : Fin 4096) : ∃ v : ℝ, Cert.Spec.logit x r k = (v : EReal) := by
  have h : ∀ d : Fin 192, ∃ v : ℝ, Cert.Spec.head x r d * Cert.Spec.head x k d = (v : EReal) := fun d => by
    obtain ⟨a, ha⟩ := head_real x r hfin d
    obtain ⟨b, hb⟩ := head_real x k hfin d
    exact ⟨a * b, by rw [ha, hb, EReal.coe_mul]⟩
  choose g hg using h
  refine ⟨(∑ d : Fin 192, g d) * (134217728 / 9395241 : ℝ), ?_⟩
  unfold Cert.Spec.logit Cert.Spec.invT
  rw [EReal.coe_mul, coe_sum]
  exact congrArg (· * _) (Finset.sum_congr rfl fun d _ => hg d)

theorem logitB_real (J : ℕ) (q : Fin 512) : ∃ v : ℝ, logitB x r J q = (v : EReal) := by
  unfold logitB
  split
  · exact logit_real x r hfin _
  · exact ⟨0, by rw [EReal.coe_zero]⟩

theorem rowMax_real : ∃ v : ℝ, Cert.Spec.rowMax x r = (v : EReal) := by
  obtain ⟨i, _, hi⟩ := Finset.exists_mem_eq_sup Finset.univ Finset.univ_nonempty (fun k : Fin 4096 => Cert.Spec.logit x r k)
  obtain ⟨v, hv⟩ := logit_real x r hfin i
  exact ⟨v, hi.trans hv⟩

theorem denom_pos : ∃ v : ℝ, 0 < v ∧ Cert.Spec.denom x r = (v : EReal) := by
  choose l hl using logit_real x r hfin
  obtain ⟨M, hM⟩ := rowMax_real x r hfin
  have hk : ∃ k0 : Fin 4096, r ≠ k0 := by
    by_cases h : r.val = 0
    · exact ⟨⟨1, by norm_num⟩, fun e => by
        have e' : r.val = 1 := congrArg Fin.val e
        omega⟩
    · exact ⟨⟨0, by norm_num⟩, fun e => h (congrArg Fin.val e)⟩
  obtain ⟨k0, hk0⟩ := hk
  refine ⟨∑ k : Fin 4096, Real.exp (l k - M) * (if r = k then 0 else 1), ?_, ?_⟩
  · refine Finset.sum_pos' (fun k _ => mul_nonneg (Real.exp_pos _).le ?_) ⟨k0, Finset.mem_univ _, ?_⟩
    · split
      · exact le_refl _
      · exact zero_le_one
    · rw [if_neg hk0, mul_one]
      exact Real.exp_pos _
  · unfold Cert.Spec.denom
    rw [coe_sum]
    refine Finset.sum_congr rfl fun k _ => ?_
    rw [hl, hM, ← EReal.coe_sub, Ideal.exp_coe, EReal.coe_mul]
    refine congrArg (_ * ·) ?_
    unfold Cert.Spec.offd
    split
    · exact EReal.coe_zero.symm
    · exact EReal.coe_one.symm

theorem lsum_logitB : lsum (logitB x r) (offB r) 8 = Cert.Spec.denom x r := by
  rw [lsum_eq _ _ (logitB_real x r hfin) (offB01 r), mx_logitB]
  unfold Cert.Spec.denom
  refine Finset.sum_congr rfl fun k _ => ?_
  rw [flat_logitB, flat_offB]

theorem meanLogProb_of (S0 S1 S3 S4 : Vec Ideal S512x1 .f32) (p : Fin 512)
    (h0 : S0 (ix2 p (0 : Fin 1)) = acc (posB lb r) 8)
    (h1 : S1 (ix2 p (0 : Fin 1)) = acc (fun J q => posB lb r J q * logitB x r J q) 8)
    (h3 : S3 (ix2 p (0 : Fin 1)) = mx (logitB x r) 8)
    (h4 : S4 (ix2 p (0 : Fin 1)) = lsum (logitB x r) (offB r) 8) :
    k0_pay1 S3 S4 S1 S0 S0 (ix2 p (0 : Fin 1)) = Cert.Spec.meanLogProb x lb r := by
  rw [pay1, h0, h1, h3, h4, acc_posB, acc_posLogitB, mx_logitB, lsum_logitB x r hfin]
  exact mean_eq (Cert.Spec.pos lb r) (Cert.Spec.logit x r) (Cert.Spec.rowMax x r) (Cert.Spec.denom x r)
    (pos01 lb r) (logit_real x r hfin) (rowMax_real x r hfin) (denom_pos x r hfin)

end Finite

theorem meanDist_of (S0 S2 : Vec Ideal S512x1 .f32) (p : Fin 512)
    (h0 : S0 (ix2 p (0 : Fin 1)) = acc (posB lb r) 8)
    (h2 : S2 (ix2 p (0 : Fin 1)) = acc (fun J q => posB lb r J q * distB x r J q) 8) :
    k0_pay2 S2 S0 (ix2 p (0 : Fin 1)) = Cert.Spec.meanDist x lb r := by
  rw [pay2, h0, h2, acc_posB, acc_posDistB]
  rfl

end Cert.Val

end
-- ==== Proof.Val.Rows.lean ====
/-
  The two outputs where they are written.
-/
import proofs.«431328_j9835475108099_1_alg».proof.Proof.Val.RowsF
import proofs.«431328_j9835475108099_1_alg».proof.Proof.Val.RowsB

set_option maxRecDepth 16384

noncomputable section

namespace Cert.Val

open Cert.KernelIdeal Cert.KernelIdeal.Gen Cert.KernelIdeal.Hand
open Idealize.ShloMosaic Idealize.ShloMosaic.TcCoe Idealize.SL.Sem Idealize.ShloMosaic.ValueIdx
open Cert.Online
open scoped BigOperators

variable (m : (ℓ : Loc nD τ sig) → Buf (Elt Ideal) ℓ) (c : Dev nD)

/-- At a point whose column block is the last the totals have seen all 8 column blocks, so the first output is, at row p
    of the point's row block, that row's mean log-probability over its positive pairs (the features being finite); -/
theorem out4_row (hfin : ∀ j, ∃ v : ℝ, feat m c j = (v : EReal)) (t : Fin cfg0.N) (h7 : t.val % 8 = 7) (p : Fin 512) :
    (outsAt0 m c t.val t.isLt).1 (ix2 p (0 : Fin 1))
      = Cert.Spec.meanLogProb (feat m c) (labs m c) ⟨512 * (t.val / 8) + p.val, rowBlock_lt t p⟩ := by
  have T := TotalsAre.of_eq m c (totals_at m c t p) (show t.val % 8 + 1 = 8 by omega)
  rw [(comp_out m c t h7).1]
  exact meanLogProb_of (feat m c) (labs m c) ⟨512 * (t.val / 8) + p.val, rowBlock_lt t p⟩ hfin _ _ _ _ p T.cnt T.lgt T.mxm T.sme

/-- and the second its mean distance over them. -/
theorem out5_row (hfin : ∀ j, ∃ v : ℝ, feat m c j = (v : EReal)) (t : Fin cfg0.N) (h7 : t.val % 8 = 7) (p : Fin 512) :
    (outsAt0 m c t.val t.isLt).2.1 (ix2 p (0 : Fin 1))
      = Cert.Spec.meanDist (feat m c) (labs m c) ⟨512 * (t.val / 8) + p.val, rowBlock_lt t p⟩ := by
  have T := TotalsAre.of_eq m c (totals_at m c t p) (show t.val % 8 + 1 = 8 by omega)
  rw [(comp_out m c t h7).2]
  exact meanDist_of (feat m c) (labs m c) ⟨512 * (t.val / 8) + p.val, rowBlock_lt t p⟩ _ _ p T.cnt T.dst

end Cert.Val

end
-- ==== Proof.Val.Tail.lean ====
/-
  The operations after the region: from the two per-row columns to the scalar.
-/
import proofs.«431328_j9835475108099_1_alg».proof.KernelIdeal
import proofs.«431328_j9835475108099_1_alg».proof.Proof.Spec
import Idealize.ShloMosaic.PureOps.Ideal.Laws
import Idealize.ShloMosaic.Lib.ValueIdx

noncomputable section

namespace Cert.Val

open Cert.KernelIdeal Idealize.ShloMosaic Idealize.ShloMosaic.ValueIdx
open scoped BigOperators

variable [Facts₀]
open Facts₀

theorem column_total (o : FVec Ideal S4096x1 .f32) (a : Fin 4096 → EReal)
    (h : ∀ r : Fin 4096, o (ix2 r (0 : Fin 1)) = a r) (j : S_.Idx) :
    Host.reduceAdd o (constant (F := Ideal) S_ .f32 0x00000000#32) reducesTo_S4096x1_S_d0_1 h_S_ j
      = Ideal.ofBits .f32 0x00000000#32 + ∑ r : Fin 4096, a r := by
  simp only [Host.reduceAdd, Ideal.hostReduceAdd_def]
  rw [Ideal.hostReduceAdd_total reducesTo_S4096x1_S_d0_1 (fun b => b.elim0), sum_idx2]
  refine congrArg₂ (· + ·) rfl (Finset.sum_congr rfl fun r _ => ?_)
  rw [Fin.sum_univ_one]
  exact h r

theorem tail_combine (o0 o1 : FVec Ideal S4096x1 .f32) (a b : Fin 4096 → EReal)
    (h0 : ∀ r : Fin 4096, o0 (ix2 r (0 : Fin 1)) = a r) (h1 : ∀ r : Fin 4096, o1 (ix2 r (0 : Fin 1)) = b r) :
    addf (mulf (constant (F := Ideal) S_ .f32 0xBF800000#32)
        (Host.divf (Host.reduceAdd o0 (constant (F := Ideal) S_ .f32 0x00000000#32) reducesTo_S4096x1_S_d0_1 h_S_)
          (constant (F := Ideal) S_ .f32 0x45800000#32)))
      (mulf (constant (F := Ideal) S_ .f32 0xBBA3D70A#32)
        (Host.reduceAdd o1 (constant (F := Ideal) S_ .f32 0x00000000#32) reducesTo_S4096x1_S_d0_1 h_S_))
      = fun _ => Cert.Spec.combine (∑ r : Fin 4096, a r) (∑ r : Fin 4096, b r) := by
  funext j
  show Ideal.ofBits .f32 0xBF800000#32
      * Ideal.div (Host.reduceAdd o0 (constant (F := Ideal) S_ .f32 0x00000000#32) reducesTo_S4096x1_S_d0_1 h_S_ j)
          (Ideal.ofBits .f32 0x45800000#32)
    + Ideal.ofBits .f32 0xBBA3D70A#32
      * Host.reduceAdd o1 (constant (F := Ideal) S_ .f32 0x00000000#32) reducesTo_S4096x1_S_d0_1 h_S_ j = _
  rw [column_total o0 a h0, column_total o1 b h1]
  rfl

end Cert.Val

end
-- ==== Proof.Finite.lean ====
/-
  From the precondition, every entry of the features is a real number.
-/
import proofs.«431328_j9835475108099_1_alg».proof.Defs
import Idealize.ShloMosaic.Lib.ReduceAll

noncomputable section

namespace Cert.Finite

open Idealize.ShloMosaic Idealize.SL.Sem

instance : Subsingleton Cert.Pre_finite_inputs.S_.Idx := ⟨fun a b => funext fun d => d.elim0⟩

theorem real_of_abs_lt_top (a : EReal) (h : max a (-a) < ⊤) : ∃ v : ℝ, a = (v : EReal) := by
  induction a using EReal.rec with
  | bot => simp at h
  | coe v => exact ⟨v, rfl⟩
  | top => simp at h

theorem ofBits_pinf : Ideal.ofBits .f32 0x7F800000#32 = (⊤ : EReal) := by
  simp [Ideal.ofBits, Ideal.ieee]

theorem entries_real [Cert.Pre_finite_inputs.Facts]
    (x : FVec Ideal Cert.Pre_finite_inputs.S2048x2x256 .f32) (lb : IVec Cert.Pre_finite_inputs.S2048 32)
    (h : Cert.Pre_finite_inputs.fn (F := Ideal) x lb = fun _ => 1#1) : ∀ j, ∃ v : ℝ, x j = (v : EReal) := by
  intro j
  have h0 := congrFun h (fun d => d.elim0)
  dsimp only [Cert.Pre_finite_inputs.fn] at h0
  have hj := Host.reduce_andi_all _ _ _ _ _ h0 j
  have hc : Ideal.cmp .olt (max (x j) (-(x j))) (Ideal.ofBits .f32 0x7F800000#32) = 1#1 := hj
  rw [ofBits_pinf] at hc
  refine real_of_abs_lt_top _ ?_
  by_contra hn
  simp [Ideal.cmp, hn] at hc

theorem of_pre [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ∀ j, ∃ v : ℝ, m ((c.tc : Thread _ _).loc Cert.KernelIdeal.main_arg0) j = (v : EReal) :=
  entries_real _ _ (h c)

end Cert.Finite

end
-- ==== Proof.Val.Kernel.lean ====
/-
  From the rows to the result: each output column is written one block of 512 rows at a time, at the last column block of its row
  block, and the eight blocks cover the 4096 rows; the operations after the region combine the two columns' sums into the loss.
-/
import proofs.«431328_j9835475108099_1_alg».proof.Proof.KI.Frame
import proofs.«431328_j9835475108099_1_alg».proof.Proof.KI.FrameBody
import proofs.«431328_j9835475108099_1_alg».proof.Proof.KI.Launch
import proofs.«431328_j9835475108099_1_alg».proof.Proof.Val.Rows
import proofs.«431328_j9835475108099_1_alg».proof.Proof.Val.Tail
import proofs.«431328_j9835475108099_1_alg».proof.Proof.Spec
import proofs.«431328_j9835475108099_1_alg».proof.Proof.Finite
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.Val
open Cert.KernelIdeal Cert.KernelIdeal.Gen Cert.KernelIdeal.Hand Idealize.ShloMosaic.ValueIdx
variable (m : (ℓ : Loc nD τ sig) → Buf (Elt Ideal) ℓ)

abbrev col (g : Fin 4096 → EReal) : S4096x1.Idx → EReal := fun i => g ⟨(i 0).val, (i 0).isLt⟩

theorem out_index : ∀ t : Fin cfg0.N, win0_4.index t (0 : Fin 2) = t.val / 8 ∧ win0_4.index t (1 : Fin 2) = 0
    ∧ win0_5.index t (0 : Fin 2) = t.val / 8 ∧ win0_5.index t (1 : Fin 2) = 0 :=
  (by decide +kernel : ∀ t : Fin grid0.N, _)

theorem block_entry (o : S512x1.Idx → EReal) (g : Fin 4096 → EReal) (q : ℕ) (hq : q < 8)
    (ho : ∀ p : Fin 512, o (ix2 p (0 : Fin 1)) = g ⟨512 * q + p.val, by have := p.isLt; omega⟩)
    (j : S512x1.Idx) (i : S4096x1.Idx) (hi : (i 0).val = q * 512 + 1 * (j 0).val) :
    o j = col g i := by
  have hj : j = ix2 (⟨(j 0).val, (j 0).isLt⟩ : Fin 512) (0 : Fin 1) := by
    funext a
    match a with
    | ⟨0, _⟩ => rfl
    | ⟨1, _⟩ => exact Fin.ext (by have h : (j 1).val < 1 := (j 1).isLt; show (j 1).val = 0; omega)
  refine (congrArg o hj).trans ((ho ⟨(j 0).val, (j 0).isLt⟩).trans (congrArg g (Fin.ext ?_)))
  show 512 * q + (j 0).val = (i 0).val
  omega

theorem flushed4_eq (c : Dev nD) (hfin : ∀ j, ∃ v : ℝ, m ((c.tc : Thread nD τ).loc main_arg0) j = (v : EReal))
    (t : Fin cfg0.N) (h7 : t.val % 8 = 7) :
    (dats m 0 c).flushed 4 t = ((cfg0.win 4).blk t).view.read (Elt Ideal)
      (col (Cert.Spec.meanLogProb (m ((c.tc : Thread nD τ).loc main_arg0)) (m ((c.tc : Thread nD τ).loc main_arg1)))) := by
  show (cfg0.win 4).cut (grid0.coords t) ((dats m 0 c).after 4 t) = _
  rw [after0_4]
  funext j
  have hN : cfg0.N = 64 := N_0
  obtain ⟨e0, e1, e2, e3⟩ := out_index t
  refine block_entry (outsAt0 m c t.val t.isLt).1 _ (t.val / 8) (by have := t.isLt; omega)
    (fun p => out4_row m c hfin t h7 p) j (((cfg0.win 4).blk t).view.emb j) ?_
  show win0_4.index t (0 : Fin 2) * 512 + 1 * (j 0).val = t.val / 8 * 512 + 1 * (j 0).val
  rw [e0]

theorem flushed5_eq (c : Dev nD) (hfin : ∀ j, ∃ v : ℝ, m ((c.tc : Thread nD τ).loc main_arg0) j = (v : EReal))
    (t : Fin cfg0.N) (h7 : t.val % 8 = 7) :
    (dats m 0 c).flushed 5 t = ((cfg0.win 5).blk t).view.read (Elt Ideal)
      (col (Cert.Spec.meanDist (m ((c.tc : Thread nD τ).loc main_arg0)) (m ((c.tc : Thread nD τ).loc main_arg1)))) := by
  show (cfg0.win 5).cut (grid0.coords t) ((dats m 0 c).after 5 t) = _
  rw [after0_5]
  funext j
  have hN : cfg0.N = 64 := N_0
  obtain ⟨e0, e1, e2, e3⟩ := out_index t
  refine block_entry (outsAt0 m c t.val t.isLt).2.1 _ (t.val / 8) (by have := t.isLt; omega)
    (fun p => out5_row m c hfin t h7 p) j (((cfg0.win 5).blk t).view.emb j) ?_
  show win0_5.index t (0 : Fin 2) * 512 + 1 * (j 0).val = t.val / 8 * 512 + 1 * (j 0).val
  rw [e2]

def flushPoint (i : S4096x1.Idx) : Fin cfg0.N :=
  ⟨8 * ((i 0).val / 512) + 7, by have h : (i 0).val < 4096 := (i 0).isLt; have hN : cfg0.N = 64 := N_0; omega⟩

theorem flushPoint_mod (i : S4096x1.Idx) : (flushPoint i).val % 8 = 7 := by
  show (8 * ((i 0).val / 512) + 7) % 8 = 7
  omega

theorem cover4 (i : S4096x1.Idx) :
    ∃ t : Fin cfg0.N, (cfg0.win 4).flush t = true ∧ i ∈ ((cfg0.win 4).blk t).view.set := by
  refine ⟨flushPoint i, (flush0_4 _).mpr (flushPoint_mod i), ?_⟩
  show i ∈ ((View.whole main_v7_0).slice (win0_4.rect (flushPoint i))).set
  rw [View.set_slice_whole, Rect.mem_set_unit]
  obtain ⟨e0, e1, e2, e3⟩ := out_index (flushPoint i)
  have hv : (flushPoint i).val = 8 * ((i 0).val / 512) + 7 := rfl
  have h0 : (i 0).val < 4096 := (i 0).isLt
  have h1 : (i 1).val < 1 := (i 1).isLt
  intro a
  match a with
  | ⟨0, _⟩ =>
    show win0_4.index (flushPoint i) (0 : Fin 2) * 512 ≤ (i 0).val ∧ (i 0).val < win0_4.index (flushPoint i) (0 : Fin 2) * 512 + 512
    rw [e0, hv]; omega
  | ⟨1, _⟩ =>
    show win0_4.index (flushPoint i) (1 : Fin 2) * 1 ≤ (i 1).val ∧ (i 1).val < win0_4.index (flushPoint i) (1 : Fin 2) * 1 + 1
    rw [e1]; omega

theorem cover5 (i : S4096x1.Idx) :
    ∃ t : Fin cfg0.N, (cfg0.win 5).flush t = true ∧ i ∈ ((cfg0.win 5).blk t).view.set := by
  refine ⟨flushPoint i, (flush0_5 _).mpr (flushPoint_mod i), ?_⟩
  show i ∈ ((View.whole main_v7_1).slice (win0_5.rect (flushPoint i))).set
  rw [View.set_slice_whole, Rect.mem_set_unit]
  obtain ⟨e0, e1, e2, e3⟩ := out_index (flushPoint i)
  have hv : (flushPoint i).val = 8 * ((i 0).val / 512) + 7 := rfl
  have h0 : (i 0).val < 4096 := (i 0).isLt
  have h1 : (i 1).val < 1 := (i 1).isLt
  intro a
  match a with
  | ⟨0, _⟩ =>
    show win0_5.index (flushPoint i) (0 : Fin 2) * 512 ≤ (i 0).val ∧ (i 0).val < win0_5.index (flushPoint i) (0 : Fin 2) * 512 + 512
    rw [e2, hv]; omega
  | ⟨1, _⟩ =>
    show win0_5.index (flushPoint i) (1 : Fin 2) * 1 ≤ (i 1).val ∧ (i 1).val < win0_5.index (flushPoint i) (1 : Fin 2) * 1 + 1
    rw [e3]; omega

theorem final4_arr (c : Dev nD) (hfin : ∀ j, ∃ v : ℝ, m ((c.tc : Thread nD τ).loc main_arg0) j = (v : EReal)) :
    (dats m 0 c).arrAt 4 cfg0.N
      = col (Cert.Spec.meanLogProb (m ((c.tc : Thread nD τ).loc main_arg0)) (m ((c.tc : Thread nD τ).loc main_arg1))) :=
  (dats m 0 c).arrAt_eq_of_cover 4 _ (fun t hf => flushed4_eq m c hfin t ((flush0_4 t).mp hf)) cover4

theorem final5_arr (c : Dev nD) (hfin : ∀ j, ∃ v : ℝ, m ((c.tc : Thread nD τ).loc main_arg0) j = (v : EReal)) :
    (dats m 0 c).arrAt 5 cfg0.N
      = col (Cert.Spec.meanDist (m ((c.tc : Thread nD τ).loc main_arg0)) (m ((c.tc : Thread nD τ).loc main_arg1))) :=
  (dats m 0 c).arrAt_eq_of_cover 5 _ (fun t hf => flushed5_eq m c hfin t ((flush0_5 t).mp hf)) cover5

theorem final4 (c : Dev nD) (hfin : ∀ j, ∃ v : ℝ, m ((c.tc : Thread nD τ).loc main_arg0) j = (v : EReal)) (r : Fin 4096) :
    (dats m 0 c).arrAt 4 cfg0.N (ix2 r (0 : Fin 1))
      = Cert.Spec.meanLogProb (m ((c.tc : Thread nD τ).loc main_arg0)) (m ((c.tc : Thread nD τ).loc main_arg1)) r :=
  congrFun (final4_arr m c hfin) (ix2 r (0 : Fin 1))

theorem final5 (c : Dev nD) (hfin : ∀ j, ∃ v : ℝ, m ((c.tc : Thread nD τ).loc main_arg0) j = (v : EReal)) (r : Fin 4096) :
    (dats m 0 c).arrAt 5 cfg0.N (ix2 r (0 : Fin 1))
      = Cert.Spec.meanDist (m ((c.tc : Thread nD τ).loc main_arg0)) (m ((c.tc : Thread nD τ).loc main_arg1)) r :=
  congrFun (final5_arr m c hfin) (ix2 r (0 : Fin 1))

theorem result_eq (c : Dev nD) (hfin : ∀ j, ∃ v : ℝ, m ((c.tc : Thread nD τ).loc main_arg0) j = (v : EReal)) :
    tailVal m c ((dats m 0 c).arrAt 4 cfg0.N) ((dats m 0 c).arrAt 5 cfg0.N)
      = fun _ => Cert.Spec.G (m ((c.tc : Thread nD τ).loc main_arg0)) (m ((c.tc : Thread nD τ).loc main_arg1)) := by
  rw [tailVal_eq]
  exact tail_combine _ _ _ _ (final4 m c hfin) (final5 m c hfin)

end Cert.Val

namespace Cert.Val
open Cert.KernelIdeal.Hand

theorem kernel_result [hK : Cert.KernelIdeal.Facts] [hP : Cert.Pre_finite_inputs.Facts]
    (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) :
    θ_run (Cert.KernelIdeal.defs (F := Ideal)) (onTc (τ := Cert.KernelIdeal.τ) (Cert.KernelIdeal.main (F := Ideal)))
      ⟨m, fun _ => 0, ρ⟩ (fun r => ∀ c : Dev Cert.KernelIdeal.nD,
        r.2.mem ((c.tc : Thread Cert.KernelIdeal.nD Cert.KernelIdeal.τ).loc Cert.KernelIdeal.main_v13)
          = (fun _ => Cert.Spec.G (m ((c.tc : Thread Cert.KernelIdeal.nD Cert.KernelIdeal.τ).loc Cert.KernelIdeal.main_arg0))
              (m ((c.tc : Thread Cert.KernelIdeal.nD Cert.KernelIdeal.τ).loc Cert.KernelIdeal.main_arg1)))
        ∧ r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
          = m ((c.tc : Thread Cert.KernelIdeal.nD Cert.KernelIdeal.τ).loc Cert.KernelIdeal.main_arg1)) :=
  (θ_run _ _ _).mono (fun r h c => ⟨(h c).1.trans (result_eq m c (Cert.Finite.of_pre m hpre c)), (h c).2⟩)
    (run_main m ρ (dats m) (A_eq m) (fun _ => rfl) (fun _ => rfl) (fun _ => rfl) (fun _ => rfl) (fun _ _ => rfl)
      (fun c => (body_obligation m c).loose) (hin m) (hout m))

end Cert.Val
end
-- ==== Proof.Ref.RefA.lean ====
/-
  The reference's stacked features and its two masks, read at an index.
-/
import proofs.«431328_j9835475108099_1_alg».proof.Proof.Gen.ReferenceIdeal.Read
import proofs.«431328_j9835475108099_1_alg».proof.Proof.Spec

noncomputable section

namespace Cert.Ref

open Cert.ReferenceIdeal Cert.ReferenceIdeal.Gen Cert.ReferenceIdeal.Read Idealize.ShloMosaic Idealize.ShloMosaic.ValueIdx
open scoped BigOperators

theorem ofBits_one_f32 : Ideal.ofBits .f32 0x3F800000#32 = 1 := by
  simp [Ideal.ofBits, Ideal.ieee, -EReal.coe_mul]; norm_num

theorem uitofp_cmpi_eq (a b : BitVec 32) :
    FloatOps.uitofp (F := Ideal) .f32 (IntOp.cmpi .eq a b) = if a = b then 1 else 0 := by
  show (((BitVec.ofBool (a == b)).toNat : ℝ) : EReal) = _
  by_cases h : a = b <;> simp [h]

theorem ofNat_eq_iff (r k : Fin 4096) : BitVec.ofNat 32 r.val = BitVec.ofNat 32 k.val ↔ r = k := by
  constructor
  · intro h
    have h' := congrArg BitVec.toNat h
    simp only [BitVec.toNat_ofNat] at h'
    have hr := r.isLt; have hk := k.isLt
    exact Fin.ext (by omega)
  · intro h; rw [h]

theorem cf_eq (x : FVec Ideal S2048x2x256 .f32) (r : Fin 4096) (d : Fin 256) :
    val_main_v1 (F := Ideal) x (ix2 r d) = Cert.Spec.cf x r d := by
  rw [val_main_v1_apply, val_main_v0_apply]
  unfold Cert.Spec.cf
  refine congrArg x (funext fun a => Fin.ext ?_)
  have hr := r.isLt; have hd := d.isLt
  match a with
  | ⟨0, _⟩ => show (r.val * 256 + d.val) / 256 % 2048 = r.val % 2048; omega
  | ⟨1, _⟩ => show (r.val * 256 + d.val) / 524288 = r.val / 2048; omega
  | ⟨2, _⟩ => show (r.val * 256 + d.val) % 256 = d.val; omega

theorem offd_eq (r k : Fin 4096) : val_main_v18 (F := Ideal) (ix2 r k) = Cert.Spec.offd r k := by
  rw [val_main_v18_apply, val_main_v17_apply, val_main_cst_apply, val_main_v16_apply, val_main_v15_apply,
    val_main_v14_apply, val_main_v11_apply, val_main_v13_apply, val_main_c_apply, val_main_v12_apply, uitofp_cmpi_eq]
  simp only [Ideal.subf_def, Ideal.ofBits_def, ofBits_one_f32]
  show (1 : EReal) - (if IntOp.addi (BitVec.ofNat 32 r.val) 0#32 = BitVec.ofNat 32 k.val then 1 else 0) = _
  rw [show IntOp.addi (BitVec.ofNat 32 r.val) 0#32 = BitVec.ofNat 32 r.val from BitVec.add_zero _]
  unfold Cert.Spec.offd
  by_cases h : r = k
  · rw [if_pos ((ofNat_eq_iff r k).mpr h), if_pos h]
    show ((1 : ℝ) : EReal) - ((1 : ℝ) : EReal) = 0
    rw [← EReal.coe_sub, sub_self, EReal.coe_zero]
  · rw [if_neg (fun e => h ((ofNat_eq_iff r k).mp e)), if_neg h, sub_zero]

theorem pos_eq (lb : IVec S2048 32) (r k : Fin 4096) :
    val_main_v19 (F := Ideal) lb (ix2 r k) = Cert.Spec.pos lb r k := by
  have hr := r.isLt; have hk := k.isLt
  have e1 : idx_main_v2 (idx_main_v4 (idx_main_v8 (idx_main_v9 (idx_main_v10 (ix2 r k))))) = ix1 (Cert.Spec.rowB r) :=
    funext fun a => Fin.ext (by
      match a with
      | ⟨0, _⟩ =>
        show (((0 * 2048 + (r.val * 4096 + k.val) / 4096 % 2048) * 1 + 0) * 2048 + (r.val * 4096 + k.val) % 2048) / 2048
          = r.val % 2048
        omega)
  have e2 : idx_main_v3 (idx_main_v5 (idx_main_v8 (idx_main_v9 (idx_main_v10 (ix2 r k))))) = ix1 (Cert.Spec.rowB k) :=
    funext fun a => Fin.ext (by
      match a with
      | ⟨0, _⟩ =>
        show (((0 * 2048 + (r.val * 4096 + k.val) / 4096 % 2048) * 1 + 0) * 2048 + (r.val * 4096 + k.val) % 2048) % 2048
          = k.val % 2048
        omega)
  rw [val_main_v19_apply, offd_eq, val_main_v10_apply, val_main_v9_apply, val_main_v8_apply, val_main_v7_apply,
    val_main_v6_apply, val_main_v4_apply, val_main_v2_apply, val_main_v5_apply, val_main_v3_apply, e1, e2, uitofp_cmpi_eq]
  simp only [Ideal.mulf_def]
  unfold Cert.Spec.pos Cert.Spec.offd Cert.Spec.lab
  by_cases hl : lb (ix1 (Cert.Spec.rowB r)) = lb (ix1 (Cert.Spec.rowB k)) <;> by_cases hd : r = k <;> simp [hl, hd]

theorem cnt_eq (lb : IVec S2048 32) (r : Fin 4096) :
    val_main_v20 (F := Ideal) lb (ix1 r) = Cert.Spec.cnt lb r := by
  rw [val_main_v20_apply, val_main_cst_0_apply]
  simp only [Ideal.ofBits_def, Ideal.ofBits_zero_f32, zero_add]
  unfold Cert.Spec.cnt
  refine Finset.sum_congr rfl fun k _ => ?_
  rw [← pos_eq]
  exact congrArg _ (funext fun a => by match a with | ⟨0, _⟩ => rfl | ⟨1, _⟩ => rfl)

end Cert.Ref

end
-- ==== Proof.Ref.RefB.lean ====
/-
  The reference's distance part, read at an index.
-/
import proofs.«431328_j9835475108099_1_alg».proof.Proof.Ref.RefA

noncomputable section

namespace Cert.Ref

open Cert.ReferenceIdeal Cert.ReferenceIdeal.Gen Cert.ReferenceIdeal.Read Idealize.ShloMosaic Idealize.ShloMosaic.ValueIdx
open scoped BigOperators

theorem select_ogt (a e u v : EReal) :
    Scalar.select (FloatOps.cmpf (F := Ideal) (φ := .f32) .ogt a e) u v = if e < a then u else v := by
  show Scalar.select (BitVec.ofBool (decide (e < a))) u v = _
  by_cases h : e < a <;> simp [h, Scalar.select]

theorem tail_eq (x : FVec Ideal S2048x2x256 .f32) (r : Fin 4096) (d : Fin 92) :
    val_main_v21 (F := Ideal) x (ix2 r d) = Cert.Spec.tail x r d := by
  rw [val_main_v21_apply]
  unfold Cert.Spec.tail
  rw [← cf_eq]
  exact congrArg _ (funext fun a => by match a with | ⟨0, _⟩ => rfl | ⟨1, _⟩ => rfl)

theorem sq_eq (x : FVec Ideal S2048x2x256 .f32) (r : Fin 4096) :
    val_main_v23 (F := Ideal) x (ix1 r) = Cert.Spec.sq x r := by
  rw [val_main_v23_apply, val_main_cst_1_apply]
  simp only [Ideal.ofBits_def, Ideal.ofBits_zero_f32, zero_add]
  unfold Cert.Spec.sq
  refine Finset.sum_congr rfl fun d _ => ?_
  have e : idx_main_v23 (ix1 r) d = ix2 r d := funext fun a => by match a with | ⟨0, _⟩ => rfl | ⟨1, _⟩ => rfl
  rw [val_main_v22_apply, e, tail_eq]
  rfl

theorem gram_eq (x : FVec Ideal S2048x2x256 .f32) (r k : Fin 4096) :
    val_main_v25 (F := Ideal) x (ix2 r k) = Cert.Spec.gram x r k := by
  rw [val_main_v25_apply]
  unfold Cert.Spec.gram
  refine Finset.sum_congr rfl fun d _ => ?_
  have el : lidx_main_v25 (ix2 r k) d = ix2 r d := funext fun a => by match a with | ⟨0, _⟩ => rfl | ⟨1, _⟩ => rfl
  have er : idx_main_v24 (ridx_main_v25 (ix2 r k) d) = ix2 k d :=
    funext fun a => by match a with | ⟨0, _⟩ => rfl | ⟨1, _⟩ => rfl
  rw [val_main_v24_apply, el, er, tail_eq, tail_eq]

theorem d2_eq (x : FVec Ideal S2048x2x256 .f32) (r k : Fin 4096) :
    val_main_v35 (F := Ideal) x (ix2 r k) = Cert.Spec.d2 x r k := by
  have e1 : idx_main_v26 (idx_main_v28 (ix2 r k)) = ix1 r := funext fun a => by match a with | ⟨0, _⟩ => rfl
  have e2 : idx_main_v27 (idx_main_v29 (ix2 r k)) = ix1 k := funext fun a => by match a with | ⟨0, _⟩ => rfl
  rw [val_main_v35_apply, val_main_v34_apply, val_main_cst_3_apply, val_main_v33_apply, val_main_v30_apply,
    val_main_v28_apply, val_main_v26_apply, e1, sq_eq, val_main_v29_apply, val_main_v27_apply, e2, sq_eq,
    val_main_v32_apply, val_main_v31_apply, val_main_cst_2_apply, gram_eq]
  simp only [Ideal.maximumf_def, Ideal.subf_def, Ideal.addf_def, Ideal.mulf_def, Ideal.ofBits_def, Ideal.ofBits_zero_f32]
  rfl

theorem dist_eq (x : FVec Ideal S2048x2x256 .f32) (r k : Fin 4096) :
    val_main_v42 (F := Ideal) x (ix2 r k) = Cert.Spec.dist x r k := by
  rw [val_main_v42_apply, val_main_v41_apply, val_main_v40_apply, val_main_cst_6_apply, val_main_call1_v1_apply,
    val_main_call1_v0_apply, val_main_cst_7_apply, val_main_v39_apply, val_main_v38_apply, val_main_v37_apply,
    val_main_v36_apply, val_main_cst_4_apply, val_main_call0_v1_apply, val_main_call0_v0_apply, val_main_cst_5_apply,
    d2_eq, select_ogt, select_ogt]
  simp only [Ideal.hostUnary_sqrt_def, Ideal.ofBits_def, Ideal.ofBits_zero_f32]
  unfold Cert.Spec.dist Cert.Spec.eps
  by_cases h : Ideal.ofBits .f32 0x2B8CBCCC#32 < Cert.Spec.d2 x r k
  · rw [if_pos h, if_pos h, if_pos h]
  · rw [if_neg h, if_neg h]

theorem meanDist_eq (x : FVec Ideal S2048x2x256 .f32) (lb : IVec S2048 32) (r : Fin 4096) :
    val_main_v45 (F := Ideal) x lb (ix1 r) = Cert.Spec.meanDist x lb r := by
  rw [val_main_v45_apply, val_main_v44_apply, val_main_cst_8_apply, cnt_eq]
  simp only [Ideal.hostDivf_def, Ideal.ofBits_def, Ideal.ofBits_zero_f32, zero_add]
  unfold Cert.Spec.meanDist
  refine congrArg (Ideal.div · _) (Finset.sum_congr rfl fun k _ => ?_)
  have e : idx_main_v44 (ix1 r) k = ix2 r k := funext fun a => by match a with | ⟨0, _⟩ => rfl | ⟨1, _⟩ => rfl
  rw [val_main_v43_apply, e, pos_eq, dist_eq]
  rfl

end Cert.Ref

end
-- ==== Proof.Ref.RefC.lean ====
/-
  The reference's logit part, read at an index; the quotient by the temperature is the product with its reciprocal.
-/
import proofs.«431328_j9835475108099_1_alg».proof.Proof.Ref.RefA
import proofs.«431328_j9835475108099_1_alg».proof.Proof.Consts

noncomputable section

namespace Cert.Ref

open Cert.ReferenceIdeal Cert.ReferenceIdeal.Gen Cert.ReferenceIdeal.Read Idealize.ShloMosaic Idealize.ShloMosaic.ValueIdx
open scoped BigOperators

theorem head_eq (x : FVec Ideal S2048x2x256 .f32) (r : Fin 4096) (d : Fin 192) :
    val_main_v48 (F := Ideal) x (ix2 r d) = Cert.Spec.head x r d := by
  rw [val_main_v48_apply]
  unfold Cert.Spec.head
  rw [← cf_eq]
  exact congrArg _ (funext fun a => by match a with | ⟨0, _⟩ => rfl | ⟨1, _⟩ => rfl)

theorem logit_eq (x : FVec Ideal S2048x2x256 .f32) (r k : Fin 4096) :
    val_main_v52 (F := Ideal) x (ix2 r k) = Cert.Spec.logit x r k := by
  rw [val_main_v52_apply, val_main_v51_apply, val_main_cst_11_apply, val_main_v50_apply]
  simp only [Ideal.hostDivf_def, Ideal.ofBits_def]
  rw [Cert.Consts.div_D]
  unfold Cert.Spec.logit
  refine congrArg (· * _) (Finset.sum_congr rfl fun d _ => ?_)
  have el : lidx_main_v50 (ix2 r k) d = ix2 r d := funext fun a => by match a with | ⟨0, _⟩ => rfl | ⟨1, _⟩ => rfl
  have er : idx_main_v49 (ridx_main_v50 (ix2 r k) d) = ix2 k d :=
    funext fun a => by match a with | ⟨0, _⟩ => rfl | ⟨1, _⟩ => rfl
  rw [val_main_v49_apply, el, er, head_eq, head_eq]

theorem fold_maximumf_bot {ι : Type} [DecidableEq ι] (s : Finset ι) (g : ι → EReal) :
    s.fold (FloatOps.maximumf (F := Ideal) (φ := .f32)) ⊥ g = s.sup g := by
  induction s using Finset.induction_on with
  | empty => rw [Finset.fold_empty, Finset.sup_empty]
  | insert a s ha ih => rw [Finset.fold_insert ha, Finset.sup_insert, ih]; rfl

theorem rowMax_eq (x : FVec Ideal S2048x2x256 .f32) (r : Fin 4096) :
    val_main_v53 (F := Ideal) x (ix1 r) = Cert.Spec.rowMax x r := by
  have hR : S4096x4096.Reduces [1] S4096 := by decide
  have hl : ∀ k : Fin 4096, hR.lift (ix1 r) k = ix2 r k := fun k =>
    funext fun a => Fin.ext (by match a with | ⟨0, _⟩ => rfl | ⟨1, _⟩ => rfl)
  unfold val_main_v53
  refine (Host.reduce_eq_fold_single (FloatOps.maximumf (F := Ideal) (φ := .f32)) (val_main_v52 (F := Ideal) x)
    (val_main_cst_12 (F := Ideal)) reducesTo_S4096x4096_S4096_d1 hR h_S_ (ix1 r)).trans ?_
  rw [val_main_cst_12_apply]
  simp only [Ideal.ofBits_def, Cert.Consts.ofBits_ninf]
  refine (fold_maximumf_bot _ _).trans ?_
  unfold Cert.Spec.rowMax
  exact Finset.sup_congr rfl fun k _ => (congrArg (val_main_v52 (F := Ideal) x) (hl k)).trans (logit_eq x r k)

theorem shifted_eq (x : FVec Ideal S2048x2x256 .f32) (r k : Fin 4096) :
    val_main_v56 (F := Ideal) x (ix2 r k) = Cert.Spec.logit x r k - Cert.Spec.rowMax x r := by
  have e : idx_main_v54 (idx_main_v55 (ix2 r k)) = ix1 r := funext fun a => by match a with | ⟨0, _⟩ => rfl
  rw [val_main_v56_apply, logit_eq, val_main_v55_apply, val_main_v54_apply, e, rowMax_eq]
  rfl

theorem denom_eq (x : FVec Ideal S2048x2x256 .f32) (r : Fin 4096) :
    val_main_v59 (F := Ideal) x (ix1 r) = Cert.Spec.denom x r := by
  rw [val_main_v59_apply, val_main_cst_13_apply]
  simp only [Ideal.ofBits_def, Ideal.ofBits_zero_f32, zero_add]
  unfold Cert.Spec.denom
  refine Finset.sum_congr rfl fun k _ => ?_
  have e : idx_main_v59 (ix1 r) k = ix2 r k := funext fun a => by match a with | ⟨0, _⟩ => rfl | ⟨1, _⟩ => rfl
  rw [val_main_v58_apply, e, val_main_v57_apply, shifted_eq, offd_eq]
  rfl

theorem meanLogProb_eq (x : FVec Ideal S2048x2x256 .f32) (lb : IVec S2048 32) (r : Fin 4096) :
    val_main_v66 (F := Ideal) x lb (ix1 r) = Cert.Spec.meanLogProb x lb r := by
  rw [val_main_v66_apply, val_main_v65_apply, val_main_cst_14_apply, cnt_eq]
  simp only [Ideal.hostDivf_def, Ideal.ofBits_def, Ideal.ofBits_zero_f32, zero_add]
  unfold Cert.Spec.meanLogProb
  refine congrArg (Ideal.div · _) (Finset.sum_congr rfl fun k _ => ?_)
  have e : idx_main_v65 (ix1 r) k = ix2 r k := funext fun a => by match a with | ⟨0, _⟩ => rfl | ⟨1, _⟩ => rfl
  have e' : idx_main_v60 (idx_main_v62 (ix2 r k)) = ix1 r := funext fun a => by match a with | ⟨0, _⟩ => rfl
  rw [val_main_v64_apply, e, pos_eq, val_main_v63_apply, shifted_eq, val_main_v62_apply, val_main_v61_apply,
    val_main_v60_apply, e', denom_eq]
  rfl

end Cert.Ref

end
-- ==== Proof.Ref.RefG.lean ====
/-
  The reference's result is the loss G of its two arguments.
-/
import proofs.«431328_j9835475108099_1_alg».proof.Proof.Gen.ReferenceIdeal.Run
import proofs.«431328_j9835475108099_1_alg».proof.Proof.Gen.ReferenceIdeal.Read
import proofs.«431328_j9835475108099_1_alg».proof.Proof.Spec
import proofs.«431328_j9835475108099_1_alg».proof.Proof.Ref.RefB
import proofs.«431328_j9835475108099_1_alg».proof.Proof.Ref.RefC

noncomputable section

namespace Cert.Ref

open Cert.ReferenceIdeal Cert.ReferenceIdeal.Gen Cert.ReferenceIdeal.Read Idealize.ShloMosaic Idealize.ShloMosaic.ValueIdx
open scoped BigOperators

open Idealize.ShloMosaic.TcCoe Idealize.SL.Sem Idealize.ShloMosaic.StableHlo

theorem sum_idx1 {M : Type*} [AddCommMonoid M] {n : Nat} (f : (⟨1, ![n]⟩ : Shape).Idx → M) :
    ∑ i, f i = ∑ a : Fin n, f (ix1 a) :=
  Fintype.sum_equiv ⟨fun i => i 0, fun a => ix1 a, fun i => (eq_ix1 i).symm, fun _ => rfl⟩ f (fun a => f (ix1 a))
    (fun i => congrArg f (eq_ix1 i))

theorem result_eq (x : FVec Ideal S2048x2x256 .f32) (lb : IVec S2048 32) :
    val_main_v70 (F := Ideal) x lb = fun _ => Cert.Spec.G x lb := by
  funext i
  rw [val_main_v70_apply, val_main_v69_apply, val_main_cst_17_apply, val_main_v68_apply, val_main_cst_16_apply,
    val_main_v67_apply, val_main_cst_15_apply, val_main_v47_apply, val_main_cst_10_apply, val_main_v46_apply,
    val_main_cst_9_apply, sum_idx1, sum_idx1]
  simp only [Ideal.addf_def, Ideal.mulf_def, Ideal.hostDivf_def, Ideal.ofBits_def, meanLogProb_eq, meanDist_eq]
  rfl

theorem run_G (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v70)
          = (fun _ => Cert.Spec.G (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono
    (fun _ h c => ⟨(h c).1.trans ((val_main_v70_eq m c).trans (result_eq _ _)), (h c).2⟩)
    (Cert.ReferenceIdeal.Value.run (F := Ideal) m ρ)

end Cert.Ref

end
-- ==== Proof.lean ====
/-
  The fused supervised-contrastive kernel against its reference, over the extended reals. Both compute the loss G of
  Proof/Spec.lean: the reference operation by operation (Proof/Ref/); the kernel walks the 4096 x 4096 pair matrix in 8 x 8 tiles,
  keeping per row five running totals whose ends are the flat sums, the row maximum and the softmax denominator (Proof/Online.lean,
  where finiteness is used), and writes each row's two means at its last tile (Proof/Val/). The kernel multiplies the logits by 1 / D
  where the reference divides by D. The frames are Proof/KI/ (idealized kernel), Proof/K/ (the kernel as printed) and the
  reference's run.
-/
import proofs.«431328_j9835475108099_1_alg».proof.Defs
import proofs.«431328_j9835475108099_1_alg».proof.Proof.Gen.Kernel
import proofs.«431328_j9835475108099_1_alg».proof.Proof.Gen.KernelIdeal
import proofs.«431328_j9835475108099_1_alg».proof.Proof.Gen.ReferenceIdeal
import proofs.«431328_j9835475108099_1_alg».proof.Proof.Gen.Pre_finite_inputs
import proofs.«431328_j9835475108099_1_alg».proof.Proof.Consts
import proofs.«431328_j9835475108099_1_alg».proof.Proof.KI.Frame
import proofs.«431328_j9835475108099_1_alg».proof.Proof.KI.FrameBody
import proofs.«431328_j9835475108099_1_alg».proof.Proof.KI.Launch
import proofs.«431328_j9835475108099_1_alg».proof.Proof.K.Frame
import proofs.«431328_j9835475108099_1_alg».proof.Proof.K.FrameBody
import proofs.«431328_j9835475108099_1_alg».proof.Proof.K.Launch
import proofs.«431328_j9835475108099_1_alg».proof.Proof.Val.Kernel
import proofs.«431328_j9835475108099_1_alg».proof.Proof.Ref.RefG
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) := fun m ρ _ =>
  (θ_run (Cert.Kernel.defs (F := Bits)) _ _).mono (fun _ h c => (h c).2)
    (Cert.Kernel.Hand.run_main (F := Bits) m ρ (Cert.Kernel.Hand.dats m) (Cert.Kernel.Hand.A_eq m) (fun _ => rfl) (fun _ => rfl) (fun _ => rfl) (fun _ => rfl) (fun _ _ => rfl)
      (fun c => (Cert.Kernel.Hand.body_obligation m c).loose) (Cert.Kernel.Hand.hin m) (Cert.Kernel.Hand.hout m))

theorem frame_ki : Cert.frame_KernelIdeal (hKernelIdeal := Cert.KernelIdeal.Gen.facts) (hPre_finite_inputs := Cert.Pre_finite_inputs.Gen.facts) := fun m ρ _ =>
  (θ_run (Cert.KernelIdeal.defs (F := Ideal)) _ _).mono (fun _ h c => (h c).2)
    (Cert.KernelIdeal.Hand.run_main (F := Ideal) m ρ (Cert.KernelIdeal.Hand.dats m) (Cert.KernelIdeal.Hand.A_eq m) (fun _ => rfl) (fun _ => rfl) (fun _ => rfl) (fun _ => rfl) (fun _ _ => rfl)
      (fun c => (Cert.KernelIdeal.Hand.body_obligation m c).loose) (Cert.KernelIdeal.Hand.hin m) (Cert.KernelIdeal.Hand.hout m))

theorem frame_ri : Cert.frame_ReferenceIdeal (hReferenceIdeal := Cert.ReferenceIdeal.Gen.facts) (hPre_finite_inputs := Cert.Pre_finite_inputs.Gen.facts) := fun m ρ _ =>
  (θ_run (Cert.ReferenceIdeal.defs (F := Ideal)) _ _).mono (fun _ h c => (h c).2) (Cert.Ref.run_G m ρ)

theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  refine ⟨fun c => fun _ => Cert.Spec.G (m ((c.tc : Thread _ _).loc Cert.KernelIdeal.main_arg0)) (m ((c.tc : Thread _ _).loc Cert.KernelIdeal.main_arg1)),
    Cert.Val.kernel_result m ρ hpre, ?_⟩
  refine (θ_run (Cert.ReferenceIdeal.defs (F := Ideal)) _ _).mono (fun _ h c => ⟨(h c).1.trans ?_, (h c).2⟩) (Cert.Ref.run_G m' ρ')
  rw [(hagree c).1, (hagree c).2]
  rfl

theorem claim : Cert.Claim := ⟨Cert.Kernel.Gen.facts, Cert.KernelIdeal.Gen.facts, Cert.ReferenceIdeal.Gen.facts, Cert.Pre_finite_inputs.Gen.facts,
  frame_k, frame_ki, frame_ri, Cert.Consts.preserves, algebraic⟩

end Cert.Proof

end
